-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096 : Shape := ⟨2, ![16, 4096]⟩
abbrev S4096x4096 : Shape := ⟨2, ![4096, 4096]⟩
abbrev S32x8192x128 : Shape := ⟨3, ![32, 8192, 128]⟩
abbrev S_ : Shape := ⟨0, ![]⟩

class Facts : Prop where
  bcast_S_S16x4096 : S_.BroadcastsInDim S16x4096 (![] : Fin 0 → Fin S16x4096.rank)
  reducesTo_S16x4096_S_d0_1 : S16x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S32x8192x128 : S_.BroadcastsInDim S32x8192x128 (![] : Fin 0 → Fin S32x8192x128.rank)
  reducesTo_S32x8192x128_S_d0_1_2 : S32x8192x128.ReducesTo [0, 1, 2] S_

variable [Facts]

def fn_part1 {F : FTy → Type} [FloatOps F] (main_arg4 : FVec F S32x8192x128 .f32) (main_arg5 : FVec F S32x8192x128 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S32x8192x128 .f32 := Host.absf main_arg4
  let main_cst_6 : FVec F S_ .f32 := constant S_ .f32 0x7F800000#32
  let main_v20 : FVec F S32x8192x128 .f32 := broadcastInDim S32x8192x128 ![] bcast_S_S32x8192x128 main_cst_6
  let main_v21 : IVec S32x8192x128 1 := cmpf .olt main_v19 main_v20
  let main_c_7 : IVec S_ 1 := constantI S_ 1 1#1
  let main_v22 : IVec S_ 1 := (fun x v => Host.reduce IntOp.andi x v reducesTo_S32x8192x128_S_d0_1_2 h_S_) main_v21 main_c_7
  let main_v23 : IVec S_ 1 := andi main_v18 main_v22
  let main_v24 : FVec F S32x8192x128 .f32 := Host.absf main_arg5
  let main_cst_8 : FVec F S_ .f32 := constant S_ .f32 0x7F800000#32
  let main_v25 : FVec F S32x8192x128 .f32 := broadcastInDim S32x8192x128 ![] bcast_S_S32x8192x128 main_cst_8
  let main_v26 : IVec S32x8192x128 1 := cmpf .olt main_v24 main_v25
  let main_c_9 : IVec S_ 1 := constantI S_ 1 1#1
  let main_v27 : IVec S_ 1 := (fun x v => Host.reduce IntOp.andi x v reducesTo_S32x8192x128_S_d0_1_2 h_S_) main_v26 main_c_9
  let main_v28 : IVec S_ 1 := andi main_v23 main_v27
  main_v28

def fn {F : FTy → Type} [FloatOps F] (main_arg0 : FVec F S16x4096 .f32) (main_arg1 : FVec F S4096x4096 .f32) (main_arg2 : FVec F S4096x4096 .f32) (main_arg3 : FVec F S4096x4096 .f32) (main_arg4 : FVec F S32x8192x128 .f32) (main_arg5 : FVec F S32x8192x128 .f32) : IVec S_ 1 :=
  let main_v0 : FVec F S16x4096 .f32 := Host.absf main_arg0
  let main_cst : FVec F S_ .f32 := constant S_ .f32 0x7F800000#32
  let main_v1 : FVec F S16x4096 .f32 := broadcastInDim S16x4096 ![] bcast_S_S16x4096 main_cst
  let main_v2 : IVec S16x4096 1 := cmpf .olt main_v0 main_v1
  let main_c : IVec S_ 1 := constantI S_ 1 1#1
  let main_v3 : IVec S_ 1 := (fun x v => Host.reduce IntOp.andi x v reducesTo_S16x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_v13 main_v16
-- ==== Kernel.lean ====
abbrev S16x4096 : Shape := ⟨2, ![16, 4096]⟩
abbrev S4096x4096 : Shape := ⟨2, ![4096, 4096]⟩
abbrev S32x8192x128 : Shape := ⟨3, ![32, 8192, 128]⟩
abbrev S32x16x128 : Shape := ⟨3, ![32, 16, 128]⟩
abbrev S16x2048 : Shape := ⟨2, ![16, 2048]⟩
abbrev S2048x1024 : Shape := ⟨2, ![2048, 1024]⟩
abbrev S8x16x128 : Shape := ⟨3, ![8, 16, 128]⟩
abbrev S16x1024 : Shape := ⟨2, ![16, 1024]⟩
abbrev S16x8x128 : Shape := ⟨3, ![16, 8, 128]⟩
abbrev S8x1024x128 : Shape := ⟨3, ![8, 1024, 128]⟩
abbrev S8x16x1 : Shape := ⟨3, ![8, 16, 1]⟩
abbrev S8x16x1024 : Shape := ⟨3, ![8, 16, 1024]⟩
abbrev S8x16 : Shape := ⟨2, ![8, 16]⟩
abbrev S8x16x16 : Shape := ⟨3, ![8, 16, 16]⟩

abbrev nBuf : Space → Nat
  | .hbm => 10
  | .vmem => 36
  | .smem => 0
  | _ => 0

abbrev bufTy : (tb : Table) → Fin (tcTables nBuf tb) → BufTy
  | .hbm, ⟨0, _⟩ => ⟨S16x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S32x8192x128, .f32⟩
  | .hbm, ⟨5, _⟩ => ⟨S32x8192x128, .f32⟩
  | .hbm, ⟨6, _⟩ => ⟨S32x16x128, .f32⟩
  | .hbm, ⟨7, _⟩ => ⟨S32x16x128, .f32⟩
  | .hbm, ⟨8, _⟩ => ⟨S32x16x128, .f32⟩
  | .hbm, ⟨9, _⟩ => ⟨S16x4096, .f32⟩
  | .local _ .vmem, ⟨0, _⟩ => ⟨S16x2048, .f32⟩
  | .local _ .vmem, ⟨1, _⟩ => ⟨S16x2048, .f32⟩
  | .local _ .vmem, ⟨2, _⟩ => ⟨S2048x1024, .f32⟩
  | .local _ .vmem, ⟨3, _⟩ => ⟨S2048x1024, .f32⟩
  | .local _ .vmem, ⟨4, _⟩ => ⟨S8x16x128, .f32⟩
  | .local _ .vmem, ⟨5, _⟩ => ⟨S8x16x128, .f32⟩
  | .local _ .vmem, ⟨6, _⟩ => ⟨S16x1024, .f32⟩
  | .local _ .vmem, ⟨7, _⟩ => ⟨S16x2048, .f32⟩
  | .local _ .vmem, ⟨8, _⟩ => ⟨S16x2048, .f32⟩
  | .local _ .vmem, ⟨9, _⟩ => ⟨S2048x1024, .f32⟩
  | .local _ .vmem, ⟨10, _⟩ => ⟨S2048x1024, .f32⟩
  | .local _ .vmem, ⟨11, _⟩ => ⟨S8x16x128, .f32⟩
  | .local _ .vmem, ⟨12, _⟩ => ⟨S8x16x128, .f32⟩
  | .local _ .vmem, ⟨13, _⟩ => ⟨S16x1024, .f32⟩
  | .local _ .vmem, ⟨14, _⟩ => ⟨S16x2048, .f32⟩
  | .local _ .vmem, ⟨15, _⟩ => ⟨S16x2048, .f32⟩
  | .local _ .vmem, ⟨16, _⟩ => ⟨S2048x1024, .f32⟩
  | .local _ .vmem, ⟨17, _⟩ => ⟨S2048x1024, .f32⟩
  | .local _ .vmem, ⟨18, _⟩ => ⟨S8x16x128, .f32⟩
  | .local _ .vmem, ⟨19, _⟩ => ⟨S8x16x128, .f32⟩
  | .local _ .vmem, ⟨20, _⟩ => ⟨S16x1024, .f32⟩
  | .local _ .vmem, ⟨21, _⟩ => ⟨S8x16x128, .f32⟩
  | .local _ .vmem, ⟨22, _⟩ => ⟨S8x16x128, .f32⟩
  | .local _ .vmem, ⟨23, _⟩ => ⟨S8x16x128, .f32⟩
  | .local _ .vmem, ⟨24, _⟩ => ⟨S8x16x128, .f32⟩
  | .local _ .vmem, ⟨25, _⟩ => ⟨S8x16x128, .f32⟩
  | .local _ .vmem, ⟨26, _⟩ => ⟨S8x16x128, .f32⟩
  | .local _ .vmem, ⟨27, _⟩ => ⟨S8x1024x128, .f32⟩
  | .local _ .vmem, ⟨28, _⟩ => ⟨S8x1024x128, .f32⟩
  | .local _ .vmem, ⟨29, _⟩ => ⟨S8x1024x128, .f32⟩
  | .local _ .vmem, ⟨30, _⟩ => ⟨S8x1024x128, .f32⟩
  | .local _ .vmem, ⟨31, _⟩ => ⟨S16x1024, .f32⟩
  | .local _ .vmem, ⟨32, _⟩ => ⟨S16x1024, .f32⟩
  | .local _ .vmem, ⟨33, _⟩ => ⟨S8x16x1, .f32⟩
  | .local _ .vmem, ⟨34, _⟩ => ⟨S8x16x1, .f32⟩
  | .local _ .vmem, ⟨35, _⟩ => ⟨S8x16x128, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc3_stg4_0 : Ref sig .tc := ⟨.vmem, 29, rfl⟩
abbrev cc3_stg4_1 : Ref sig .tc := ⟨.vmem, 30, rfl⟩
abbrev cc3_stg5_0 : Ref sig .tc := ⟨.vmem, 31, rfl⟩
abbrev cc3_stg5_1 : Ref sig .tc := ⟨.vmem, 32, rfl⟩
abbrev cc3_scratch0 : Ref sig .tc := ⟨.vmem, 33, rfl⟩
abbrev cc3_scratch1 : Ref sig .tc := ⟨.vmem, 34, rfl⟩
abbrev cc3_scratch2 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem4_1 : DmaSem sig := 27
abbrev cc3_sem5_0 : DmaSem sig := 28
abbrev cc3_sem5_1 : DmaSem sig := 29

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![4, 2], ![false, false]⟩

def k1_cond2 (i : grid1.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S16x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S8x16x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![4, 2], ![false, false]⟩

def k2_cond2 (i : grid2.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S16x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S2048x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S8x16x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨2, ![4, 8], ![false, false]⟩

def k3_cond2 (i : grid3.Coords) : BitVec 1 :=
  let arg1 : BitVec 32 := BitVec.ofNat 32 (i 1).val
  let c7_i32 : BitVec 32 := 7#32
  let v41 : BitVec 1 := Scalar.cmpi .eq arg1 c7_i32
  let v42 : BitVec 32 := Scalar.extui v41
  let c0_i32_33 : BitVec 32 := 0#32
  let v43 : BitVec 1 := Scalar.cmpi .ne v42 c0_i32_33
  v43

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage3_0 : Fin 2 → Memref sig .tc .vmem S8x16x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S8x16x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S8x16x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S8x1024x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S8x1024x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S16x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

class Facts₀ : Prop where
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  inb_S16x2048_S16x2048_0_0 : ∀ a, (![0, 0] : Fin 2 → Nat) a + S16x2048.size a ≤ S16x2048.size a
  h_S16x2048 : 0 < S16x2048.numel
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  shapeCasts_S16x1024_S16x8x128 : S16x1024.ShapeCasts S16x8x128
  transposes_S16x8x128_p1_0_2_S8x16x128 : S16x8x128.Transposes [1, 0, 2] S8x16x128
  inb_S8x16x128_S8x16x128_0_0_0 : ∀ a, (![0, 0, 0] : Fin 3 → Nat) a + S8x16x128.size a ≤ S8x16x128.size a
  h_S8x16x128 : 0 < S8x16x128.numel
  inb_S8x16x1_S8x16x1_0_0_0 : ∀ a, (![0, 0, 0] : Fin 3 → Nat) a + S8x16x1.size a ≤ S8x16x1.size a
  h_S8x16x1 : 0 < S8x16x1.numel
  shapeCasts_S8x16x1_S8x16x1 : S8x16x1.ShapeCasts S8x16x1
  shapeCasts_S8x16x128_S8x16x128 : S8x16x128.ShapeCasts S8x16x128
  inb_S8x1024x128_S8x1024x128_0_0_0 : ∀ a, (![0, 0, 0] : Fin 3 → Nat) a + S8x1024x128.size a ≤ S8x1024x128.size a
  h_S8x1024x128 : 0 < S8x1024x128.numel
  reduces_S8x16x1024_S8x16 : S8x16x1024.Reduces [2] S8x16
  shapeCasts_S8x16_S8x16x1 : S8x16.ShapeCasts S8x16x1
  broadcasts_S8x16x1_S8x16x1024 : S8x16x1.Broadcasts S8x16x1024
  broadcasts_S8x16x1_S8x16x128 : S8x16x1.Broadcasts S8x16x128
  reduces_S8x16x16_S8x16 : S8x16x16.Reduces [2] S8x16
  broadcasts_S8x16x1_S8x16x16 : S8x16x1.Broadcasts S8x16x16
  transposes_S8x16x128_p1_0_2_S16x8x128 : S8x16x128.Transposes [1, 0, 2] S16x8x128
  shapeCasts_S16x8x128_S16x1024 : S16x8x128.ShapeCasts S16x1024
  dot_S16x2048_S2048x1024_S16x1024_1_0_0_1_n_n_wf : DotDims.WF S16x2048 S2048x1024 S16x1024 [1] [0] [0] [1] [] []
  dot_S8x16x128_S8x1024x128_S8x16x1024_2_2_1_1_0_0_wf : DotDims.WF S8x16x128 S8x1024x128 S8x16x1024 [2] [2] [1] [1] [0] [0]
  dot_S8x16x1024_S8x1024x128_S8x16x128_2_1_1_2_0_0_wf : DotDims.WF S8x16x1024 S8x1024x128 S8x16x128 [2] [1] [1] [2] [0] [0]
  dot_S8x16x128_S8x16x128_S8x16x16_2_2_1_1_0_0_wf : DotDims.WF S8x16x128 S8x16x128 S8x16x16 [2] [2] [1] [1] [0] [0]
  dot_S8x16x16_S8x16x128_S8x16x128_2_1_1_2_0_0_wf : DotDims.WF S8x16x16 S8x16x128 S8x16x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x2048.size a ≤ S16x4096.size a
  hwx0_0 : ∀ i : grid0.Coords, EltTy.bits .f32 = 32 ∨ (Rect.block (s := S16x4096) S16x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S4096x4096.size a
  hwx0_1 : ∀ i : grid0.Coords, EltTy.bits .f32 = 32 ∨ (Rect.block (s := S4096x4096) S2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x16x128.size a ≤ S32x16x128.size a
  hwx0_2 : ∀ i : grid0.Coords, EltTy.bits .f32 = 32 ∨ (Rect.block (s := S32x16x128) S8x16x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x2048.size a ≤ S16x4096.size a
  hwx1_0 : ∀ i : grid1.Coords, EltTy.bits .f32 = 32 ∨ (Rect.block (s := S16x4096) S16x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S4096x4096.size a
  hwx1_1 : ∀ i : grid1.Coords, EltTy.bits .f32 = 32 ∨ (Rect.block (s := S4096x4096) S2048x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x16x128.size a ≤ S32x16x128.size a
  hwx1_2 : ∀ i : grid1.Coords, EltTy.bits .f32 = 32 ∨ (Rect.block (s := S32x16x128) S8x16x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S16x2048.size a ≤ S16x4096.size a
  hwx2_0 : ∀ i : grid2.Coords, EltTy.bits .f32 = 32 ∨ (Rect.block (s := S16x4096) S16x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x1024.size a ≤ S4096x4096.size a
  hwx2_1 : ∀ i : grid2.Coords, EltTy.bits .f32 = 32 ∨ (Rect.block (s := S4096x4096) S2048x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8x16x128.size a ≤ S32x16x128.size a
  hwx2_2 : ∀ i : grid2.Coords, EltTy.bits .f32 = 32 ∨ (Rect.block (s := S32x16x128) S8x16x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8x16x128.size a ≤ S32x16x128.size a
  hwx3_0 : ∀ i : grid3.Coords, EltTy.bits .f32 = 32 ∨ (Rect.block (s := S32x16x128) S8x16x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8x16x128.size a ≤ S32x16x128.size a
  hwx3_1 : ∀ i : grid3.Coords, EltTy.bits .f32 = 32 ∨ (Rect.block (s := S32x16x128) S8x16x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8x16x128.size a ≤ S32x16x128.size a
  hwx3_2 : ∀ i : grid3.Coords, EltTy.bits .f32 = 32 ∨ (Rect.block (s := S32x16x128) S8x16x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S8x1024x128.size a ≤ S32x8192x128.size a
  hwx3_3 : ∀ i : grid3.Coords, EltTy.bits .f32 = 32 ∨ (Rect.block (s := S32x8192x128) S8x1024x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S8x1024x128.size a ≤ S32x8192x128.size a
  hwx3_4 : ∀ i : grid3.Coords, EltTy.bits .f32 = 32 ∨ (Rect.block (s := S32x8192x128) S8x1024x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S16x1024.size a ≤ S16x4096.size a
  hwx3_5 : ∀ i : grid3.Coords, EltTy.bits .f32 = 32 ∨ (Rect.block (s := S16x4096) S16x1024.size (cc3_transform_5 i) (hinb3_5 i)).WholeWords (EltTy.packing .f32)

variable [Facts₀]

def dot_S16x2048_S2048x1024_S16x1024_1_0_0_1_n_n : DotDims S16x2048 S2048x1024 S16x1024 where
  lhsContracting := [1]
  rhsContracting := [0]
  lhsNonContracting := [0]
  rhsNonContracting := [1]
  lhsBatch := []
  rhsBatch := []
  wf := dot_S16x2048_S2048x1024_S16x1024_1_0_0_1_n_n_wf
def dot_S8x16x128_S8x1024x128_S8x16x1024_2_2_1_1_0_0 : DotDims S8x16x128 S8x1024x128 S8x16x1024 where
  lhsContracting := [2]
  rhsContracting := [2]
  lhsNonContracting := [1]
  rhsNonContracting := [1]
  lhsBatch := [0]
  rhsBatch := [0]
  wf := dot_S8x16x128_S8x1024x128_S8x16x1024_2_2_1_1_0_0_wf
def dot_S8x16x1024_S8x1024x128_S8x16x128_2_1_1_2_0_0 : DotDims S8x16x1024 S8x1024x128 S8x16x128 where
  lhsContracting := [2]
  rhsContracting := [1]
  lhsNonContracting := [1]
  rhsNonContracting := [2]
  lhsBatch := [0]
  rhsBatch := [0]
  wf := dot_S8x16x1024_S8x1024x128_S8x16x128_2_1_1_2_0_0_wf
def dot_S8x16x128_S8x16x128_S8x16x16_2_2_1_1_0_0 : DotDims S8x16x128 S8x16x128 S8x16x16 where
  lhsContracting := [2]
  rhsContracting := [2]
  lhsNonContracting := [1]
  rhsNonContracting := [1]
  lhsBatch := [0]
  rhsBatch := [0]
  wf := dot_S8x16x128_S8x16x128_S8x16x16_2_2_1_1_0_0_wf
def dot_S8x16x16_S8x16x128_S8x16x128_2_1_1_2_0_0 : DotDims S8x16x16 S8x16x128 S8x16x128 where
  lhsContracting := [2]
  rhsContracting := [1]
  lhsNonContracting := [1]
  rhsNonContracting := [2]
  lhsBatch := [0]
  rhsBatch := [0]
  wf := dot_S8x16x16_S8x16x128_S8x16x128_2_1_1_2_0_0_wf

abbrev win0_0 : Pipeline.Window sig grid0 :=
  Pipeline.Window.ofSpec (Memref.whole main_arg0) S16x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x16x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S16x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S8x16x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_arg0) S16x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S2048x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S8x16x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v0) S8x16x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v1) S8x16x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v2) S8x16x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg4) S8x1024x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_arg5) S8x1024x128.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v3) S16x1024.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev idle3 : Fin 6 → grid3.Coords → Bool := fun | 0 => fun _ => false | 1 => fun _ => false | 2 => fun _ => false | 3 => fun _ => false | 4 => fun _ => false | 5 => fun i => !(k3_cond2 i == 1#1) | ⟨_ + 6, h⟩ => absurd h (Nat.not_lt.2 (Nat.le_add_left _ _))

class Facts : Prop extends Facts₀ where

variable [Facts]
-- ==== ReferenceIdeal.lean ====
abbrev S16x4096 : Shape := ⟨2, ![16, 4096]⟩
abbrev S4096x4096 : Shape := ⟨2, ![4096, 4096]⟩
abbrev S32x8192x128 : Shape := ⟨3, ![32, 8192, 128]⟩
abbrev S16x32x128 : Shape := ⟨3, ![16, 32, 128]⟩
abbrev S32x16x128 : Shape := ⟨3, ![32, 16, 128]⟩
abbrev S32x8208x128 : Shape := ⟨3, ![32, 8208, 128]⟩
abbrev S32x16x8208 : Shape := ⟨3, ![32, 16, 8208]⟩
abbrev S_ : Shape := ⟨0, ![]⟩
abbrev S32x16 : Shape := ⟨2, ![32, 16]⟩
abbrev S32x16x1 : Shape := ⟨3, ![32, 16, 1]⟩

abbrev nBuf : Space → Nat
  | .hbm => 35
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S32x8192x128, .f32⟩
  | .hbm, ⟨5, _⟩ => ⟨S32x8192x128, .f32⟩
  | .hbm, ⟨6, _⟩ => ⟨S16x4096, .f32⟩
  | .hbm, ⟨7, _⟩ => ⟨S16x32x128, .f32⟩
  | .hbm, ⟨8, _⟩ => ⟨S32x16x128, .f32⟩
  | .hbm, ⟨9, _⟩ => ⟨S16x4096, .f32⟩
  | .hbm, ⟨10, _⟩ => ⟨S16x32x128, .f32⟩
  | .hbm, ⟨11, _⟩ => ⟨S32x16x128, .f32⟩
  | .hbm, ⟨12, _⟩ => ⟨S16x4096, .f32⟩
  | .hbm, ⟨13, _⟩ => ⟨S16x32x128, .f32⟩
  | .hbm, ⟨14, _⟩ => ⟨S32x16x128, .f32⟩
  | .hbm, ⟨15, _⟩ => ⟨S32x8208x128, .f32⟩
  | .hbm, ⟨16, _⟩ => ⟨S32x8208x128, .f32⟩
  | .hbm, ⟨17, _⟩ => ⟨S32x16x8208, .f32⟩
  | .hbm, ⟨18, _⟩ => ⟨S_, .f32⟩
  | .hbm, ⟨19, _⟩ => ⟨S32x16, .f32⟩
  | .hbm, ⟨20, _⟩ => ⟨S_, .f32⟩
  | .hbm, ⟨21, _⟩ => ⟨S32x16, .f32⟩
  | .hbm, ⟨22, _⟩ => ⟨S32x16, .f32⟩
  | .hbm, ⟨23, _⟩ => ⟨S32x16x1, .f32⟩
  | .hbm, ⟨24, _⟩ => ⟨S32x16x8208, .f32⟩
  | .hbm, ⟨25, _⟩ => ⟨S32x16x8208, .f32⟩
  | .hbm, ⟨26, _⟩ => ⟨S32x16x8208, .f32⟩
  | .hbm, ⟨27, _⟩ => ⟨S_, .f32⟩
  | .hbm, ⟨28, _⟩ => ⟨S32x16, .f32⟩
  | .hbm, ⟨29, _⟩ => ⟨S32x16x1, .f32⟩
  | .hbm, ⟨30, _⟩ => ⟨S32x16x8208, .f32⟩
  | .hbm, ⟨31, _⟩ => ⟨S32x16x8208, .f32⟩
  | .hbm, ⟨32, _⟩ => ⟨S32x16x128, .f32⟩
  | .hbm, ⟨33, _⟩ => ⟨S16x32x128, .f32⟩
  | .hbm, ⟨34, _⟩ => ⟨S16x4096, .f32⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]

class Facts₀ : Prop where
  shapeCasts_S16x4096_S16x32x128 : S16x4096.ShapeCasts S16x32x128
  transposes_S16x32x128_S32x16x128_1_0_2 : S16x32x128.Transposes [1, 0, 2] S32x16x128
  concatenates_S32x8192x128_S32x16x128_S32x8208x128_d1 : Shape.Concatenates [S32x8192x128, S32x16x128] S32x8208x128 1
  reducesTo_S32x16x8208_S32x16_d2 : S32x16x8208.ReducesTo [2] S32x16
  h_S_ : 0 < S_.numel
  bcast_S_S32x16 : S_.BroadcastsInDim S32x16 (![] : Fin 0 → Fin S32x16.rank)
  bcast_S32x16_S32x16x1_0_1 : S32x16.BroadcastsInDim S32x16x1 (![0, 1] : Fin 2 → Fin S32x16x1.rank)
  bcast_S32x16x1_S32x16x8208_0_1_2 : S32x16x1.BroadcastsInDim S32x16x8208 (![0, 1, 2] : Fin 3 → Fin S32x16x8208.rank)
  transposes_S32x16x128_S16x32x128_1_0_2 : S32x16x128.Transposes [1, 0, 2] S16x32x128
  shapeCasts_S16x32x128_S16x4096 : S16x32x128.ShapeCasts S16x4096
  dot_S16x4096_S4096x4096_S16x4096_1_0_0_1_n_n_wf : DotDims.WF S16x4096 S4096x4096 S16x4096 [1] [0] [0] [1] [] []
  dot_S32x16x128_S32x8208x128_S32x16x8208_2_2_1_1_0_0_wf : DotDims.WF S32x16x128 S32x8208x128 S32x16x8208 [2] [2] [1] [1] [0] [0]
  dot_S32x16x8208_S32x8208x128_S32x16x128_2_1_1_2_0_0_wf : DotDims.WF S32x16x8208 S32x8208x128 S32x16x128 [2] [1] [1] [2] [0] [0]

variable [Facts₀]

def dot_S16x4096_S4096x4096_S16x4096_1_0_0_1_n_n : DotDims S16x4096 S4096x4096 S16x4096 where
  lhsContracting := [1]
  rhsContracting := [0]
  lhsNonContracting := [0]
  rhsNonContracting := [1]
  lhsBatch := []
  rhsBatch := []
  wf := dot_S16x4096_S4096x4096_S16x4096_1_0_0_1_n_n_wf
def dot_S32x16x128_S32x8208x128_S32x16x8208_2_2_1_1_0_0 : DotDims S32x16x128 S32x8208x128 S32x16x8208 where
  lhsContracting := [2]
  rhsContracting := [2]
  lhsNonContracting := [1]
  rhsNonContracting := [1]
  lhsBatch := [0]
  rhsBatch := [0]
  wf := dot_S32x16x128_S32x8208x128_S32x16x8208_2_2_1_1_0_0_wf
def dot_S32x16x8208_S32x8208x128_S32x16x128_2_1_1_2_0_0 : DotDims S32x16x8208 S32x8208x128 S32x16x128 where
  lhsContracting := [2]
  rhsContracting := [1]
  lhsNonContracting := [1]
  rhsNonContracting := [2]
  lhsBatch := [0]
  rhsBatch := [0]
  wf := dot_S32x16x8208_S32x8208x128_S32x16x128_2_1_1_2_0_0_wf

class Facts : Prop extends Facts₀ where

variable [Facts]
-- ==== Proof.KBBodyMM0.lean ====
import proofs.«404056_j317827580171_3_alg».proof.Proof.Gen.Kernel.Launch
import proofs.«404056_j317827580171_3_alg».proof.Proof.Gen.Kernel.Skeleton
import proofs.«404056_j317827580171_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

theorem reset_of_first (i : grid0.Coords) (hi : (i 1).val = 0) :
    Scalar.cmpi .ne (Scalar.extui (Scalar.cmpi .eq (BitVec.ofNat 32 (i 1).val) 0#32)) 0#32 = 1#1 := by
  rw [hi]; decide

theorem no_flush_of_first (i : grid0.Coords) (hi : (i 1).val = 0) : ¬ k0_cond2 i = 1#1 := by
  unfold k0_cond2; simp only [hi]; decide

theorem no_reset_of_last (i : grid0.Coords) (hi : (i 1).val = 1) :
    ¬ Scalar.cmpi .ne (Scalar.extui (Scalar.cmpi .eq (BitVec.ofNat 32 (i 1).val) 0#32)) 0#32 = 1#1 := by
  rw [hi]; decide

theorem flush_of_last (i : grid0.Coords) (hi : (i 1).val = 1) : k0_cond2 i = 1#1 := by
  unfold k0_cond2; simp only [hi]; decide

/-- A write list whose newest store goes through the whole rectangle leaves no index uncovered. -/
theorem cover_unit_zero {Val : EltTy → Type} {S : Shape} {e : EltTy} {off : Fin S.rank → Nat} (h : off = fun _ => 0)
    (inb : ∀ a, off a + S.size a ≤ S.size a) (p : S.Idx → Val e) (L : List (View.Piece Val S e)) :
    ∀ y, ∃ q ∈ ((⟨Rect.unit off S.size inb, p⟩ : View.Piece Val S e) :: L), y ∈ q.1.set :=
  fun y => ⟨_, List.mem_cons_self, View.mem_set_unit_zero h inb y⟩

/-- First K-step: the accumulator is reset first, so it ends at zeros plus this step's product; the output block is not touched. -/
theorem mm0_first (c : Dev nD) (E : Set ℕ) (i : grid0.Coords) (hi : (i 1).val = 0)
    (arg2 : Memref sig .tc .vmem S16x2048 .f32) (harg2 : arg2.IsWhole) (arg3 : Memref sig .tc .vmem S2048x1024 .f32) (harg3 : arg3.IsWhole)
    (arg4 : Memref sig .tc .vmem S8x16x128 .f32) (harg4 : arg4.IsWhole) (arg5 : Memref sig .tc .vmem S16x1024 .f32) (harg5 : arg5.IsWhole)
    (x : Vec F S16x2048 .f32) (w : Vec F S2048x1024 .f32) (o : Vec F S8x16x128 .f32) (K : PUnit → sProp 𝕄) :
    iprop(owns (c : Thread nD τ) arg2 fullShare x ∗ owns (c : Thread nD τ) arg3 fullShare w
        ∗ owns (c : Thread nD τ) arg4 fullShare o ∗ (∃ s, owns (c : Thread nD τ) arg5 fullShare s)
        ∗ (iprop(owns (c : Thread nD τ) arg2 fullShare x ∗ owns (c : Thread nD τ) arg3 fullShare w
            ∗ owns (c : Thread nD τ) arg4 fullShare o
            ∗ owns (c : Thread nD τ) arg5 fullShare (k0_pay2 x w (k0_pay1 (F := F)))) -∗ K ⟨⟩))
      ⊢ wp frame (wpE (defs₀ (F := F)) Variants.none c none) E (cc0__matmul_kernel i arg2 harg2 arg3 harg3 arg4 harg4 arg5 harg5) K := by
  have hc0 := reset_of_first i hi
  have hc1 := no_flush_of_first i hi
  simp only [cc0__matmul_kernel_eq_skeleton]; unfold cc0__matmul_kernel_skel
  unfold owns
  iintro ⟨⟨%f2, %hf2, H2⟩, ⟨%f3, %hf3, H3⟩, ⟨%f4, %hf4, H4⟩, ⟨%s5, %f5, -, H5⟩, Hk⟩
  obtain rfl := harg2.eq_unread hf2; obtain rfl := harg3.eq_unread hf3; obtain rfl := harg4.eq_unread hf4
  sl_exec (disch := first | exact hc0 | exact hc1)
  sl_step
  iapply Hk
  isplitl [H2]; · iexists _; iframe H2; ipureintro; exact harg2.read_unread _
  isplitl [H3]; · iexists _; iframe H3; ipureintro; exact harg3.read_unread _
  isplitl [H4]; · iexists _; iframe H4; ipureintro; exact harg4.read_unread _
  iexists _; iframe H5; ipureintro
  sl_unfold_words
  rw [View.read_writes_eq_canon _ _ _ (cover_unit_zero hz2 _ _ _)]
  rw [View.canon_cons_unit_zero (S := S16x1024) hz2, View.readCov_unit_zero (S := S16x1024) _ hz2]
  simp only [View.readAt_eq_ld, harg2.read_unread, harg3.read_unread, View.ld_unit_zero (S := S16x2048) hz2,
    View.ld_unit_zero (S := S2048x1024) hz2]

/-- Second K-step: the accumulator gains this step's product, and the output block receives that sum regrouped by heads. -/
theorem mm0_last (c : Dev nD) (E : Set ℕ) (i : grid0.Coords) (hi : (i 1).val = 1)
    (arg2 : Memref sig .tc .vmem S16x2048 .f32) (harg2 : arg2.IsWhole) (arg3 : Memref sig .tc .vmem S2048x1024 .f32) (harg3 : arg3.IsWhole)
    (arg4 : Memref sig .tc .vmem S8x16x128 .f32) (harg4 : arg4.IsWhole) (arg5 : Memref sig .tc .vmem S16x1024 .f32) (harg5 : arg5.IsWhole)
    (x : Vec F S16x2048 .f32) (w : Vec F S2048x1024 .f32) (s : Vec F S16x1024 .f32) (K : PUnit → sProp 𝕄) :
    iprop(owns (c : Thread nD τ) arg2 fullShare x ∗ owns (c : Thread nD τ) arg3 fullShare w
        ∗ (∃ o, owns (c : Thread nD τ) arg4 fullShare o) ∗ owns (c : Thread nD τ) arg5 fullShare s
        ∗ (iprop(owns (c : Thread nD τ) arg2 fullShare x ∗ owns (c : Thread nD τ) arg3 fullShare w
            ∗ owns (c : Thread nD τ) arg4 fullShare (k0_pay3 (k0_pay2 x w s))
            ∗ owns (c : Thread nD τ) arg5 fullShare (k0_pay2 x w s)) -∗ K ⟨⟩))
      ⊢ wp frame (wpE (defs₀ (F := F)) Variants.none c none) E (cc0__matmul_kernel i arg2 harg2 arg3 harg3 arg4 harg4 arg5 harg5) K := by
  have hc0 := no_reset_of_last i hi
  have hc1 := flush_of_last i hi
  simp only [cc0__matmul_kernel_eq_skeleton]; unfold cc0__matmul_kernel_skel
  unfold owns
  iintro ⟨⟨%f2, %hf2, H2⟩, ⟨%f3, %hf3, H3⟩, ⟨%o4, %f4, -, H4⟩, ⟨%f5, %hf5, H5⟩, Hk⟩
  obtain rfl := harg2.eq_unread hf2; obtain rfl := harg3.eq_unread hf3; obtain rfl := harg5.eq_unread hf5
  sl_exec (disch := first | exact hc0 | exact hc1)
  sl_step
  iapply Hk
  isplitl [H2]; · iexists _; iframe H2; ipureintro; exact harg2.read_unread _
  isplitl [H3]; · iexists _; iframe H3; ipureintro; exact harg3.read_unread _
  isplitl [H4]
  · iexists _; iframe H4; ipureintro
    sl_unfold_words
    rw [View.read_writes_eq_canon _ _ _ (cover_unit_zero hz3 _ _ _)]
    rw [View.canon_cons_unit_zero (S := S8x16x128) hz3, View.readCov_unit_zero (S := S16x1024) _ hz2]
    simp only [View.readAt_eq_ld, harg2.read_unread, harg3.read_unread, harg5.read_unread,
      View.ld_unit_zero (S := S16x2048) hz2, View.ld_unit_zero (S := S2048x1024) hz2, View.ld_unit_zero (S := S16x1024) hz2]
  iexists _; iframe H5; ipureintro
  sl_unfold_words
  rw [View.read_writes_eq_canon _ _ _ (cover_unit_zero hz2 _ _ _), View.canon_cons_unit_zero (S := S16x1024) hz2]
  simp only [View.readAt_eq_ld, harg2.read_unread, harg3.read_unread, harg5.read_unread,
    View.ld_unit_zero (S := S16x2048) hz2, View.ld_unit_zero (S := S2048x1024) hz2, View.ld_unit_zero (S := S16x1024) hz2]

end Cert.Kernel.Hand

end
-- ==== Proof.KBRegion0.lean ====
import proofs.«404056_j317827580171_3_alg».proof.Proof.KBBodyMM0

noncomputable section

namespace Cert.Kernel.Hand

open Cert.Kernel Cert.Kernel.Gen Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after point n: the K-step's product added to zeros at an even point, to the point before at an odd one. -/
def acc0 (c : Dev nD) : (n : ℕ) → n < cfg0.N → Vec F S16x1024 .f32
  | 0, hn => k0_pay2 (iblk0 V c 0 ⟨0, hn⟩) (iblk0 V c 1 ⟨0, hn⟩) k0_pay1
  | n + 1, hn => k0_pay2 (iblk0 V c 0 ⟨n + 1, hn⟩) (iblk0 V c 1 ⟨n + 1, hn⟩)
      (if (n + 1) % 2 = 0 then k0_pay1 else acc0 c n (Nat.lt_of_succ_lt hn))

theorem acc0_even (c : Dev nD) (t : Fin cfg0.N) (h : t.val % 2 = 0) :
    acc0 V c t.val t.isLt = k0_pay2 (iblk0 V c 0 t) (iblk0 V c 1 t) (k0_pay1 (F := F)) := by
  obtain ⟨_ | n, hn⟩ := t
  · rfl
  · exact congrArg (k0_pay2 _ _) (if_pos h)

theorem acc0_odd (c : Dev nD) (t : Fin cfg0.N) (h : t.val % 2 = 1) :
    acc0 V c t.val t.isLt
      = k0_pay2 (iblk0 V c 0 t) (iblk0 V c 1 t) (acc0 V c (t.val - 1) (Nat.lt_of_le_of_lt (Nat.sub_le _ _) t.isLt)) := by
  obtain ⟨_ | n, hn⟩ := t
  · exact absurd (show (0 : ℕ) % 2 = 1 from h) (by decide)
  · exact congrArg (k0_pay2 _ _) (if_neg fun e => by have : (n + 1) % 2 = 1 := h; omega)

abbrev scM0 : Memref sig .tc .vmem S16x1024 .f32 := Memref.whole cc0_scratch0

/-- Before point n the accumulator holds what point n - 1 left when n is odd; an even point resets it, so nothing is asked of it there. -/
def Phi0 (c : Dev nD) (n : ℕ) : sProp 𝕄 :=
  iprop(∃ s, ⌜n % 2 = 1 → ∃ hk, s = acc0 V c (n - 1) hk⌝ ∗ owns (c : Thread nD τ) scM0 fullShare s
    ∗ Pipeline.scopedRestBut (Ix := Unit) (Name := ℕ) (U := UR sig nD τ) (Lvl := ℕ) (Val := Elt F) spec0 c [cc0_scratch0]
    ∗ (∃ r, prngReg c r))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc0 V c t.val t.isLt)
  Φ t := Phi0 V c t.val
  q _ := fullShare
  owed _ := 0

theorem A_eq0 (c : Dev nD) (w : Fin cfg0.W) : (dat0 V c).A w = V c (Pipeline.arrRef spec0 w) := rfl
theorem after0_2 (c : Dev nD) (t : Fin cfg0.N) : (dat0 V c).after 2 t = k0_pay3 (acc0 V c t.val t.isLt) := rfl

theorem PhiA0_eq (c : Dev nD) :
    (Pipeline.ΦA spec0 c : sProp 𝕄)
      = iprop(iprop(iprop((∃ d, owns (c : Thread nD τ) scM0 fullShare d))
          ∗ Pipeline.scopedRestBut (Ix := Unit) (Name := ℕ) (U := UR sig nD τ) (Lvl := ℕ) (Val := Elt F) spec0 c [cc0_scratch0])
        ∗ (∃ r, prngReg c r)) := by
  unfold Pipeline.ΦA; rw [scopedRest0_split]; simp only [scM0, owns_whole]; try rfl

theorem idleAt0_2_even : ∀ t : Fin cfg0.N, t.val % 2 = 0 → cfg0.idle 2 (grid0.coords t) = true := by decide +kernel
theorem noFlush0_2_even : ∀ t : Fin cfg0.N, t.val % 2 = 0 → (cfg0.win 2).flush t = false := by decide +kernel
theorem liveAt0_2_odd : ∀ t : Fin cfg0.N, t.val % 2 = 1 → cfg0.idle 2 (grid0.coords t) = false := by decide +kernel
theorem kstep0_even : ∀ t : Fin grid0.N, t.val % 2 = 0 → ((grid0.coords t) 1).val = 0 := by decide +kernel
theorem kstep0_odd : ∀ t : Fin grid0.N, t.val % 2 = 1 → ((grid0.coords t) 1).val = 1 := by decide +kernel

theorem before0_0 (c : Dev nD) (t : Fin cfg0.N) (d) : (dat0 V c).before 0 t d = iblk0 V c 0 t :=
  ((dat0 V c).before_fetched 0 t (fetch0_0 t) d).trans rfl
theorem before0_1 (c : Dev nD) (t : Fin cfg0.N) (d) : (dat0 V c).before 1 t d = iblk0 V c 1 t :=
  ((dat0 V c).before_fetched 1 t (fetch0_1 t) d).trans rfl

abbrev ms0_0 (t : Fin cfg0.N) : Memref sig .tc .vmem S16x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x16x128 .f32 := win0_2.stage (cfg0.slots t 2)
abbrev hs0_2 (t : Fin cfg0.N) : (ms0_2 t).IsWhole := hstage0_2 ((cfg0.slots t 2).cast nbuf0_2)

theorem sound_body0 (c : Dev nD) (t : Fin cfg0.N) :
    iprop(Phi0 V c t.val ∗ (dat0 V c).owesAt () t.castSucc
      ∗ (∃ d, owns (c : Thread nD τ) (ms0_0 t) fullShare ((dat0 V c).before 0 t d))
      ∗ (∃ d, owns (c : Thread nD τ) (ms0_1 t) fullShare ((dat0 V c).before 1 t d))
      ∗ (∃ d, owns (c : Thread nD τ) (ms0_2 t) fullShare ((dat0 V c).before 2 t d)))
    ⊢ wp frame (wpE (defs₀ (F := F)) Variants.none c none) Set.univ (bodyAt0 t) (fun _ =>
      iprop(Phi0 V c (t.val + 1) ∗ (dat0 V c).owesAt () t.castSucc
        ∗ owns (c : Thread nD τ) (ms0_0 t) fullShare (iblk0 V c 0 t) ∗ owns (c : Thread nD τ) (ms0_1 t) fullShare (iblk0 V c 1 t)
        ∗ (dat0 V c).leavesExact 2 t)) := by
  unfold bodyAt0
  simp only [before0_0, before0_1]
  unfold Phi0
  by_cases h : t.val % 2 = 0
  · rw [Dat.leavesExact_idle (dat0 V c) 2 t (idleAt0_2_even t h) (noFlush0_2_even t h)]
    iintro ⟨⟨%s, -, HS, HR, Hg⟩, Ho, ⟨%d0, H0⟩, ⟨%d1, H1⟩, ⟨%d2, H2⟩⟩
    iapply (mm0_first c Set.univ (grid0.coords t) (kstep0_even t h) (ms0_0 t) (hs0_0 t) (ms0_1 t) (hs0_1 t) (ms0_2 t) (hs0_2 t)
      scM0 (Memref.isWhole_whole _) (iblk0 V c 0 t) (iblk0 V c 1 t) ((dat0 V c).before 2 t d2) _)
    iframe H0 H1 H2
    isplitl [HS]; · iexists s; iexact HS
    iintro ⟨H0, H1, H2, HS⟩
    isplitl [HS HR Hg]
    · iexists _; iframe HS HR Hg; ipureintro; exact fun _ => ⟨t.isLt, (acc0_even V c t h).symm⟩
    iframe Ho H0 H1
    iexists d2; iexact H2
  · have h1 : t.val % 2 = 1 := by omega
    rw [show (dat0 V c).leavesExact 2 t = owns (c : Thread nD τ) (ms0_2 t) fullShare (k0_pay3 (acc0 V c t.val t.isLt)) from by
      unfold Dat.leavesExact; rw [liveAt0_2_odd t h1]; rfl, acc0_odd V c t h1]
    iintro ⟨⟨%s, %hs, HS, HR, Hg⟩, Ho, ⟨%d0, H0⟩, ⟨%d1, H1⟩, ⟨%d2, H2⟩⟩
    obtain ⟨hk, rfl⟩ := hs h1
    iapply (mm0_last c Set.univ (grid0.coords t) (kstep0_odd t h1) (ms0_0 t) (hs0_0 t) (ms0_1 t) (hs0_1 t) (ms0_2 t) (hs0_2 t)
      scM0 (Memref.isWhole_whole _) (iblk0 V c 0 t) (iblk0 V c 1 t) (acc0 V c (t.val - 1) hk) _)
    iframe H0 H1 HS
    isplitl [H2]; · iexists _; iexact H2
    iintro ⟨H0, H1, H2, HS⟩
    isplitl [HS HR Hg]
    · iexists _; iframe HS HR Hg; ipureintro; exact fun h2 => absurd h2 (by omega)
    iframe Ho H0 H1 H2

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [PhiA0_eq, show (dat0 V c).Φ 0 = Phi0 V c 0 from rfl]; unfold Phi0
  iintro ⟨⟨⟨%d, HS⟩, HR⟩, Hg⟩
  iexists d; iframe HS HR Hg; ipureintro; exact fun h => absurd h (by decide)

theorem hout0 (c : Dev nD) : (dat0 V c).Φ (Fin.last cfg0.N) ⊢ Pipeline.ΦA (Val := Elt F) (U := UR sig nD τ) spec0 c := by
  rw [PhiA0_eq, show (dat0 V c).Φ (Fin.last cfg0.N) = Phi0 V c cfg0.N from rfl]; unfold Phi0
  iintro ⟨%s, -, HS, HR, Hg⟩
  iframe HR Hg; iexists s; iexact HS

end

end Cert.Kernel.Hand

end
-- ==== Proof.KBRegion1.lean ====
import proofs.«404056_j317827580171_3_alg».proof.Proof.KBBodyMM0

noncomputable section

namespace Cert.Kernel.HandR1

open Cert.Kernel Cert.Kernel.Gen Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after point n: the K-step's product added to zeros at an even point, to the point before at an odd one. -/
def acc1 (c : Dev nD) : (n : ℕ) → n < cfg1.N → Vec F S16x1024 .f32
  | 0, hn => k0_pay2 (iblk1 V c 0 ⟨0, hn⟩) (iblk1 V c 1 ⟨0, hn⟩) k0_pay1
  | n + 1, hn => k0_pay2 (iblk1 V c 0 ⟨n + 1, hn⟩) (iblk1 V c 1 ⟨n + 1, hn⟩)
      (if (n + 1) % 2 = 0 then k0_pay1 else acc1 c n (Nat.lt_of_succ_lt hn))

theorem acc1_even (c : Dev nD) (t : Fin cfg1.N) (h : t.val % 2 = 0) :
    acc1 V c t.val t.isLt = k0_pay2 (iblk1 V c 0 t) (iblk1 V c 1 t) (k0_pay1 (F := F)) := by
  obtain ⟨_ | n, hn⟩ := t
  · rfl
  · exact congrArg (k0_pay2 _ _) (if_pos h)

theorem acc1_odd (c : Dev nD) (t : Fin cfg1.N) (h : t.val % 2 = 1) :
    acc1 V c t.val t.isLt
      = k0_pay2 (iblk1 V c 0 t) (iblk1 V c 1 t) (acc1 V c (t.val - 1) (Nat.lt_of_le_of_lt (Nat.sub_le _ _) t.isLt)) := by
  obtain ⟨_ | n, hn⟩ := t
  · exact absurd (show (0 : ℕ) % 2 = 1 from h) (by decide)
  · exact congrArg (k0_pay2 _ _) (if_neg fun e => by have : (n + 1) % 2 = 1 := h; omega)

abbrev scM1 : Memref sig .tc .vmem S16x1024 .f32 := Memref.whole cc1_scratch0

/-- Before point n the accumulator holds what point n - 1 left when n is odd; an even point resets it, so nothing is asked of it there. -/
def Phi1 (c : Dev nD) (n : ℕ) : sProp 𝕄 :=
  iprop(∃ s, ⌜n % 2 = 1 → ∃ hk, s = acc1 V c (n - 1) hk⌝ ∗ owns (c : Thread nD τ) scM1 fullShare s
    ∗ Pipeline.scopedRestBut (Ix := Unit) (Name := ℕ) (U := UR sig nD τ) (Lvl := ℕ) (Val := Elt F) spec1 c [cc1_scratch0]
    ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k0_pay3 (acc1 V c t.val t.isLt)
  Φ t := Phi1 V c t.val
  q _ := fullShare
  owed _ := 0

theorem A_eq1 (c : Dev nD) (w : Fin cfg1.W) : (dat1 V c).A w = V c (Pipeline.arrRef spec1 w) := rfl
theorem after1_2 (c : Dev nD) (t : Fin cfg1.N) : (dat1 V c).after 2 t = k0_pay3 (acc1 V c t.val t.isLt) := rfl

theorem PhiA1_eq (c : Dev nD) :
    (Pipeline.ΦA spec1 c : sProp 𝕄)
      = iprop(iprop(iprop((∃ d, owns (c : Thread nD τ) scM1 fullShare d))
          ∗ Pipeline.scopedRestBut (Ix := Unit) (Name := ℕ) (U := UR sig nD τ) (Lvl := ℕ) (Val := Elt F) spec1 c [cc1_scratch0])
        ∗ (∃ r, prngReg c r)) := by
  unfold Pipeline.ΦA; rw [scopedRest1_split]; simp only [scM1, owns_whole]; try rfl

theorem idleAt1_2_even : ∀ t : Fin cfg1.N, t.val % 2 = 0 → cfg1.idle 2 (grid1.coords t) = true := by decide +kernel
theorem noFlush1_2_even : ∀ t : Fin cfg1.N, t.val % 2 = 0 → (cfg1.win 2).flush t = false := by decide +kernel
theorem liveAt1_2_odd : ∀ t : Fin cfg1.N, t.val % 2 = 1 → cfg1.idle 2 (grid1.coords t) = false := by decide +kernel
theorem kstep1_even : ∀ t : Fin grid1.N, t.val % 2 = 0 → ((grid1.coords t) 1).val = 0 := by decide +kernel
theorem kstep1_odd : ∀ t : Fin grid1.N, t.val % 2 = 1 → ((grid1.coords t) 1).val = 1 := by decide +kernel

theorem before1_0 (c : Dev nD) (t : Fin cfg1.N) (d) : (dat1 V c).before 0 t d = iblk1 V c 0 t :=
  ((dat1 V c).before_fetched 0 t (fetch1_0 t) d).trans rfl
theorem before1_1 (c : Dev nD) (t : Fin cfg1.N) (d) : (dat1 V c).before 1 t d = iblk1 V c 1 t :=
  ((dat1 V c).before_fetched 1 t (fetch1_1 t) d).trans rfl

abbrev ms1_0 (t : Fin cfg1.N) : Memref sig .tc .vmem S16x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x16x128 .f32 := win1_2.stage (cfg1.slots t 2)
abbrev hs1_2 (t : Fin cfg1.N) : (ms1_2 t).IsWhole := hstage1_2 ((cfg1.slots t 2).cast nbuf1_2)

theorem sound_body1 (c : Dev nD) (t : Fin cfg1.N) :
    iprop(Phi1 V c t.val ∗ (dat1 V c).owesAt () t.castSucc
      ∗ (∃ d, owns (c : Thread nD τ) (ms1_0 t) fullShare ((dat1 V c).before 0 t d))
      ∗ (∃ d, owns (c : Thread nD τ) (ms1_1 t) fullShare ((dat1 V c).before 1 t d))
      ∗ (∃ d, owns (c : Thread nD τ) (ms1_2 t) fullShare ((dat1 V c).before 2 t d)))
    ⊢ wp frame (wpE (defs₀ (F := F)) Variants.none c none) Set.univ (bodyAt1 t) (fun _ =>
      iprop(Phi1 V c (t.val + 1) ∗ (dat1 V c).owesAt () t.castSucc
        ∗ owns (c : Thread nD τ) (ms1_0 t) fullShare (iblk1 V c 0 t) ∗ owns (c : Thread nD τ) (ms1_1 t) fullShare (iblk1 V c 1 t)
        ∗ (dat1 V c).leavesExact 2 t)) := by
  unfold bodyAt1
  simp only [before1_0, before1_1]
  unfold Phi1
  by_cases h : t.val % 2 = 0
  · rw [Dat.leavesExact_idle (dat1 V c) 2 t (idleAt1_2_even t h) (noFlush1_2_even t h)]
    iintro ⟨⟨%s, -, HS, HR, Hg⟩, Ho, ⟨%d0, H0⟩, ⟨%d1, H1⟩, ⟨%d2, H2⟩⟩
    iapply (mm0_first c Set.univ (grid1.coords t) (kstep1_even t h) (ms1_0 t) (hs1_0 t) (ms1_1 t) (hs1_1 t) (ms1_2 t) (hs1_2 t)
      scM1 (Memref.isWhole_whole _) (iblk1 V c 0 t) (iblk1 V c 1 t) ((dat1 V c).before 2 t d2) _)
    iframe H0 H1 H2
    isplitl [HS]; · iexists s; iexact HS
    iintro ⟨H0, H1, H2, HS⟩
    isplitl [HS HR Hg]
    · iexists _; iframe HS HR Hg; ipureintro; exact fun _ => ⟨t.isLt, (acc1_even V c t h).symm⟩
    iframe Ho H0 H1
    iexists d2; iexact H2
  · have h1 : t.val % 2 = 1 := by omega
    rw [show (dat1 V c).leavesExact 2 t = owns (c : Thread nD τ) (ms1_2 t) fullShare (k0_pay3 (acc1 V c t.val t.isLt)) from by
      unfold Dat.leavesExact; rw [liveAt1_2_odd t h1]; rfl, acc1_odd V c t h1]
    iintro ⟨⟨%s, %hs, HS, HR, Hg⟩, Ho, ⟨%d0, H0⟩, ⟨%d1, H1⟩, ⟨%d2, H2⟩⟩
    obtain ⟨hk, rfl⟩ := hs h1
    iapply (mm0_last c Set.univ (grid1.coords t) (kstep1_odd t h1) (ms1_0 t) (hs1_0 t) (ms1_1 t) (hs1_1 t) (ms1_2 t) (hs1_2 t)
      scM1 (Memref.isWhole_whole _) (iblk1 V c 0 t) (iblk1 V c 1 t) (acc1 V c (t.val - 1) hk) _)
    iframe H0 H1 HS
    isplitl [H2]; · iexists _; iexact H2
    iintro ⟨H0, H1, H2, HS⟩
    isplitl [HS HR Hg]
    · iexists _; iframe HS HR Hg; ipureintro; exact fun h2 => absurd h2 (by omega)
    iframe Ho H0 H1 H2

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [PhiA1_eq, show (dat1 V c).Φ 0 = Phi1 V c 0 from rfl]; unfold Phi1
  iintro ⟨⟨⟨%d, HS⟩, HR⟩, Hg⟩
  iexists d; iframe HS HR Hg; ipureintro; exact fun h => absurd h (by decide)

theorem hout1 (c : Dev nD) : (dat1 V c).Φ (Fin.last cfg1.N) ⊢ Pipeline.ΦA (Val := Elt F) (U := UR sig nD τ) spec1 c := by
  rw [PhiA1_eq, show (dat1 V c).Φ (Fin.last cfg1.N) = Phi1 V c cfg1.N from rfl]; unfold Phi1
  iintro ⟨%s, -, HS, HR, Hg⟩
  iframe HR Hg; iexists s; iexact HS

end

end Cert.Kernel.HandR1

end
-- ==== Proof.KBRegion2.lean ====
import proofs.«404056_j317827580171_3_alg».proof.Proof.KBBodyMM0

noncomputable section

namespace Cert.Kernel.HandR2

open Cert.Kernel Cert.Kernel.Gen Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator after point n: the K-step's product added to zeros at an even point, to the point before at an odd one. -/
def acc2 (c : Dev nD) : (n : ℕ) → n < cfg2.N → Vec F S16x1024 .f32
  | 0, hn => k0_pay2 (iblk2 V c 0 ⟨0, hn⟩) (iblk2 V c 1 ⟨0, hn⟩) k0_pay1
  | n + 1, hn => k0_pay2 (iblk2 V c 0 ⟨n + 1, hn⟩) (iblk2 V c 1 ⟨n + 1, hn⟩)
      (if (n + 1) % 2 = 0 then k0_pay1 else acc2 c n (Nat.lt_of_succ_lt hn))

theorem acc2_even (c : Dev nD) (t : Fin cfg2.N) (h : t.val % 2 = 0) :
    acc2 V c t.val t.isLt = k0_pay2 (iblk2 V c 0 t) (iblk2 V c 1 t) (k0_pay1 (F := F)) := by
  obtain ⟨_ | n, hn⟩ := t
  · rfl
  · exact congrArg (k0_pay2 _ _) (if_pos h)

theorem acc2_odd (c : Dev nD) (t : Fin cfg2.N) (h : t.val % 2 = 1) :
    acc2 V c t.val t.isLt
      = k0_pay2 (iblk2 V c 0 t) (iblk2 V c 1 t) (acc2 V c (t.val - 1) (Nat.lt_of_le_of_lt (Nat.sub_le _ _) t.isLt)) := by
  obtain ⟨_ | n, hn⟩ := t
  · exact absurd (show (0 : ℕ) % 2 = 1 from h) (by decide)
  · exact congrArg (k0_pay2 _ _) (if_neg fun e => by have : (n + 1) % 2 = 1 := h; omega)

abbrev scM2 : Memref sig .tc .vmem S16x1024 .f32 := Memref.whole cc2_scratch0

/-- Before point n the accumulator holds what point n - 1 left when n is odd; an even point resets it, so nothing is asked of it there. -/
def Phi2 (c : Dev nD) (n : ℕ) : sProp 𝕄 :=
  iprop(∃ s, ⌜n % 2 = 1 → ∃ hk, s = acc2 V c (n - 1) hk⌝ ∗ owns (c : Thread nD τ) scM2 fullShare s
    ∗ Pipeline.scopedRestBut (Ix := Unit) (Name := ℕ) (U := UR sig nD τ) (Lvl := ℕ) (Val := Elt F) spec2 c [cc2_scratch0]
    ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k0_pay3 (acc2 V c t.val t.isLt)
  Φ t := Phi2 V c t.val
  q _ := fullShare
  owed _ := 0

theorem A_eq2 (c : Dev nD) (w : Fin cfg2.W) : (dat2 V c).A w = V c (Pipeline.arrRef spec2 w) := rfl
theorem after2_2 (c : Dev nD) (t : Fin cfg2.N) : (dat2 V c).after 2 t = k0_pay3 (acc2 V c t.val t.isLt) := rfl

theorem PhiA2_eq (c : Dev nD) :
    (Pipeline.ΦA spec2 c : sProp 𝕄)
      = iprop(iprop(iprop((∃ d, owns (c : Thread nD τ) scM2 fullShare d))
          ∗ Pipeline.scopedRestBut (Ix := Unit) (Name := ℕ) (U := UR sig nD τ) (Lvl := ℕ) (Val := Elt F) spec2 c [cc2_scratch0])
        ∗ (∃ r, prngReg c r)) := by
  unfold Pipeline.ΦA; rw [scopedRest2_split]; simp only [scM2, owns_whole]; try rfl

theorem idleAt2_2_even : ∀ t : Fin cfg2.N, t.val % 2 = 0 → cfg2.idle 2 (grid2.coords t) = true := by decide +kernel
theorem noFlush2_2_even : ∀ t : Fin cfg2.N, t.val % 2 = 0 → (cfg2.win 2).flush t = false := by decide +kernel
theorem liveAt2_2_odd : ∀ t : Fin cfg2.N, t.val % 2 = 1 → cfg2.idle 2 (grid2.coords t) = false := by decide +kernel
theorem kstep2_even : ∀ t : Fin grid2.N, t.val % 2 = 0 → ((grid2.coords t) 1).val = 0 := by decide +kernel
theorem kstep2_odd : ∀ t : Fin grid2.N, t.val % 2 = 1 → ((grid2.coords t) 1).val = 1 := by decide +kernel

theorem before2_0 (c : Dev nD) (t : Fin cfg2.N) (d) : (dat2 V c).before 0 t d = iblk2 V c 0 t :=
  ((dat2 V c).before_fetched 0 t (fetch2_0 t) d).trans rfl
theorem before2_1 (c : Dev nD) (t : Fin cfg2.N) (d) : (dat2 V c).before 1 t d = iblk2 V c 1 t :=
  ((dat2 V c).before_fetched 1 t (fetch2_1 t) d).trans rfl

abbrev ms2_0 (t : Fin cfg2.N) : Memref sig .tc .vmem S16x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S8x16x128 .f32 := win2_2.stage (cfg2.slots t 2)
abbrev hs2_2 (t : Fin cfg2.N) : (ms2_2 t).IsWhole := hstage2_2 ((cfg2.slots t 2).cast nbuf2_2)

theorem sound_body2 (c : Dev nD) (t : Fin cfg2.N) :
    iprop(Phi2 V c t.val ∗ (dat2 V c).owesAt () t.castSucc
      ∗ (∃ d, owns (c : Thread nD τ) (ms2_0 t) fullShare ((dat2 V c).before 0 t d))
      ∗ (∃ d, owns (c : Thread nD τ) (ms2_1 t) fullShare ((dat2 V c).before 1 t d))
      ∗ (∃ d, owns (c : Thread nD τ) (ms2_2 t) fullShare ((dat2 V c).before 2 t d)))
    ⊢ wp frame (wpE (defs₀ (F := F)) Variants.none c none) Set.univ (bodyAt2 t) (fun _ =>
      iprop(Phi2 V c (t.val + 1) ∗ (dat2 V c).owesAt () t.castSucc
        ∗ owns (c : Thread nD τ) (ms2_0 t) fullShare (iblk2 V c 0 t) ∗ owns (c : Thread nD τ) (ms2_1 t) fullShare (iblk2 V c 1 t)
        ∗ (dat2 V c).leavesExact 2 t)) := by
  unfold bodyAt2
  simp only [before2_0, before2_1]
  unfold Phi2
  by_cases h : t.val % 2 = 0
  · rw [Dat.leavesExact_idle (dat2 V c) 2 t (idleAt2_2_even t h) (noFlush2_2_even t h)]
    iintro ⟨⟨%s, -, HS, HR, Hg⟩, Ho, ⟨%d0, H0⟩, ⟨%d1, H1⟩, ⟨%d2, H2⟩⟩
    iapply (mm0_first c Set.univ (grid2.coords t) (kstep2_even t h) (ms2_0 t) (hs2_0 t) (ms2_1 t) (hs2_1 t) (ms2_2 t) (hs2_2 t)
      scM2 (Memref.isWhole_whole _) (iblk2 V c 0 t) (iblk2 V c 1 t) ((dat2 V c).before 2 t d2) _)
    iframe H0 H1 H2
    isplitl [HS]; · iexists s; iexact HS
    iintro ⟨H0, H1, H2, HS⟩
    isplitl [HS HR Hg]
    · iexists _; iframe HS HR Hg; ipureintro; exact fun _ => ⟨t.isLt, (acc2_even V c t h).symm⟩
    iframe Ho H0 H1
    iexists d2; iexact H2
  · have h1 : t.val % 2 = 1 := by omega
    rw [show (dat2 V c).leavesExact 2 t = owns (c : Thread nD τ) (ms2_2 t) fullShare (k0_pay3 (acc2 V c t.val t.isLt)) from by
      unfold Dat.leavesExact; rw [liveAt2_2_odd t h1]; rfl, acc2_odd V c t h1]
    iintro ⟨⟨%s, %hs, HS, HR, Hg⟩, Ho, ⟨%d0, H0⟩, ⟨%d1, H1⟩, ⟨%d2, H2⟩⟩
    obtain ⟨hk, rfl⟩ := hs h1
    iapply (mm0_last c Set.univ (grid2.coords t) (kstep2_odd t h1) (ms2_0 t) (hs2_0 t) (ms2_1 t) (hs2_1 t) (ms2_2 t) (hs2_2 t)
      scM2 (Memref.isWhole_whole _) (iblk2 V c 0 t) (iblk2 V c 1 t) (acc2 V c (t.val - 1) hk) _)
    iframe H0 H1 HS
    isplitl [H2]; · iexists _; iexact H2
    iintro ⟨H0, H1, H2, HS⟩
    isplitl [HS HR Hg]
    · iexists _; iframe HS HR Hg; ipureintro; exact fun h2 => absurd h2 (by omega)
    iframe Ho H0 H1 H2

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [PhiA2_eq, show (dat2 V c).Φ 0 = Phi2 V c 0 from rfl]; unfold Phi2
  iintro ⟨⟨⟨%d, HS⟩, HR⟩, Hg⟩
  iexists d; iframe HS HR Hg; ipureintro; exact fun h => absurd h (by decide)

theorem hout2 (c : Dev nD) : (dat2 V c).Φ (Fin.last cfg2.N) ⊢ Pipeline.ΦA (Val := Elt F) (U := UR sig nD τ) spec2 c := by
  rw [PhiA2_eq, show (dat2 V c).Φ (Fin.last cfg2.N) = Phi2 V c cfg2.N from rfl]; unfold Phi2
  iintro ⟨%s, -, HS, HR, Hg⟩
  iframe HR Hg; iexists s; iexact HS

end

end Cert.Kernel.HandR2

end
-- ==== Proof.KBAttnDefs.lean ====
import proofs.«404056_j317827580171_3_alg».proof.Proof.Gen.Kernel.Launch
import proofs.«404056_j317827580171_3_alg».proof.Proof.Gen.Kernel.Skeleton
import proofs.«404056_j317827580171_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the reset stores: maxima at the least value, denominators and numerators zero.
abbrev at0M : Vec F S8x16x1 .f32 := k3_pay14 (F := F)
abbrev at0L : Vec F S8x16x1 .f32 := k3_pay15 (F := F)
abbrev at0A : Vec F S8x16x128 .f32 := k3_pay16 (F := F)

-- One cached block folded into the running maxima, denominators and numerators.
def stM (q : Vec F S8x16x128 .f32) (kb : Vec F S8x1024x128 .f32) (m : Vec F S8x16x1 .f32) : Vec F S8x16x1 .f32 :=
  k3_pay2 (k3_pay19 q kb m)
def stL (q : Vec F S8x16x128 .f32) (kb : Vec F S8x1024x128 .f32) (m l : Vec F S8x16x1 .f32) : Vec F S8x16x1 .f32 :=
  k3_pay22 q kb m m l
def stA (q : Vec F S8x16x128 .f32) (kb vb : Vec F S8x1024x128 .f32) (m : Vec F S8x16x1 .f32) (a : Vec F S8x16x128 .f32) :
    Vec F S8x16x128 .f32 :=
  k3_pay1 (k3_pay17 vb) (k3_pay20 q kb m m) (k3_pay21 q kb m) a

-- The tile of new keys and values folded in the same way, and the output block: numerators over denominators.
def mgM (q kn : Vec F S8x16x128 .f32) (m : Vec F S8x16x1 .f32) : Vec F S8x16x1 .f32 :=
  k3_pay4 (k3_pay8 q kn m)
def mgL (q kn : Vec F S8x16x128 .f32) (m l : Vec F S8x16x1 .f32) : Vec F S8x16x1 .f32 :=
  k3_pay11 q kn m m l
def mgA (q kn vn : Vec F S8x16x128 .f32) (m : Vec F S8x16x1 .f32) (a : Vec F S8x16x128 .f32) : Vec F S8x16x128 .f32 :=
  k3_pay3 (k3_pay6 vn) (k3_pay12 q kn m m a) (k3_pay13 q kn m)
def outB (q kn vn : Vec F S8x16x128 .f32) (m l : Vec F S8x16x1 .f32) (a : Vec F S8x16x128 .f32) : Vec F S16x1024 .f32 :=
  k3_pay5 (mgA q kn vn m a) (mgL q kn m l)

end Cert.Kernel.Hand

end
-- ==== Proof.KBBodyAttn.lean ====
import proofs.«404056_j317827580171_3_alg».proof.Proof.Gen.Kernel.Launch
import proofs.«404056_j317827580171_3_alg».proof.Proof.Gen.Kernel.Skeleton
import proofs.«404056_j317827580171_3_alg».proof.Proof.Gen.Kernel.Points
import proofs.«404056_j317827580171_3_alg».proof.Proof.KBAttnDefs
import proofs.«404056_j317827580171_3_alg».proof.Proof.KBBodyMM0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The reset's condition holds exactly at the first cached block, the last block's branch condition exactly at the last.
theorem at_cond (i : grid3.Coords) :
    (Scalar.cmpi .ne (Scalar.extui (Scalar.cmpi .eq (BitVec.ofNat 32 (i 1).val) 0#32)) 0#32 = 1#1 ↔ (i 1).val = 0)
      ∧ (k3_cond2 i = 1#1 ↔ (i 1).val = 7) := by
  have h8 : (i 1).val < 8 := (i 1).isLt
  unfold k3_cond2
  generalize (i 1).val = n at h8
  have hn : n = 0 ∨ n = 1 ∨ n = 2 ∨ n = 3 ∨ n = 4 ∨ n = 5 ∨ n = 6 ∨ n = 7 := by omega
  rcases hn with rfl | rfl | rfl | rfl | rfl | rfl | rfl | rfl <;> decide

section Whole
variable {Val : EltTy → Type} [∀ e, Nonempty (Val e)] {sg : RefSig} {κ : Kind} {sp : Space} {S : Shape} {e : EltTy}
  {off : Fin S.rank → Nat}

-- A rectangle of the shape's own extent that fits in the shape sits at zero offsets.
theorem at_off (inb : ∀ a, off a + S.size a ≤ S.size a) : off = fun _ => 0 := funext fun a => by have := inb a; omega

variable (inb : ∀ a, off a + S.size a ≤ S.size a)

-- A buffer whose last store went through the whole-shape rectangle reads as that store's payload,
theorem at_read_writes_whole (v : View sg κ sp S e) (f : v.ty.Contents Val) (w : S.Idx → Val e) (L : List (View.Piece Val S e)) :
    v.read Val (v.writes Val f ((⟨Rect.unit off S.size inb, w⟩ : View.Piece Val S e) :: L)) = w := by
  rw [View.read_writes_eq_canon _ _ _ (cover_unit_zero (at_off inb) inb _ _),
    View.canon_cons_unit_zero (at_off inb) inb]

-- and so does a load through that rectangle after such stores.
theorem at_readCov_whole (v : View sg κ sp S e) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (cover_unit_zero (at_off inb) inb _ _),
    View.canon_cons_unit_zero (at_off inb) inb, View.ld_unit_zero (at_off inb) inb]

variable {m : Memref sg κ sp S e} (h : m.IsWhole) (X : S.Idx → Val e)

-- A whole memref held at the raw contents reading `X`: a load of the whole shape reads `X`,
theorem at_readAt_unread : View.readAt Val m.view (Rect.unit off S.size inb).toLoadRect (h.unread X) = X := by
  rw [View.readAt_eq_ld, h.read_unread, View.ld_unit_zero (at_off inb) inb]

-- and after a last store of the whole shape the raw contents are those reading its payload.
theorem at_writes_unread (w : S.Idx → Val e) (L : List (View.Piece Val S e)) :
    m.view.writes Val (h.unread X) ((⟨Rect.unit off S.size inb, w⟩ : View.Piece Val S e) :: L) = h.unread w :=
  h.eq_unread (at_read_writes_whole inb _ _ w L)

end Whole

-- Owning a whole memref at `X` is holding its elements at the raw contents reading `X`.
theorem at_owns_unread (c : Dev nD) {sp : Space} {sh : Shape} {e : EltTy} {m : Memref sig .tc sp sh e} (h : m.IsWhole)
    (q : PosShare TreeShare) (X : sh.Idx → Elt F e) :
    (owns (c : Thread nD τ) m q X : sProp 𝕄) = (m.view.loc (c : Thread nD τ) ↦[m.view.set]{q} h.unread X) := by
  unfold owns
  have h₁ : iprop(∃ f, ⌜m.view.read (Elt F) f = X⌝ ∗ (m.view.loc (c : Thread nD τ) ↦[m.view.set]{q} f))
      ⊢ (m.view.loc (c : Thread nD τ) ↦[m.view.set]{q} h.unread X : sProp 𝕄) := by
    iintro ⟨%f, %hf, H⟩; obtain rfl := h.eq_unread hf; iexact H
  have h₂ : (m.view.loc (c : Thread nD τ) ↦[m.view.set]{q} h.unread X : sProp 𝕄)
      ⊢ iprop(∃ f, ⌜m.view.read (Elt F) f = X⌝ ∗ (m.view.loc (c : Thread nD τ) ↦[m.view.set]{q} f)) := by
    iintro H; iexists _; isplitr; · ipureintro; exact h.read_unread X
    iexact H
  exact BI.equiv_iff.mp ⟨h₁, h₂⟩

variable (c : Dev nD) (E : Set ℕ) (i : grid3.Coords)
    (arg2 : Memref sig .tc .vmem S8x16x128 .f32) (harg2 : arg2.IsWhole) (arg3 : Memref sig .tc .vmem S8x16x128 .f32) (harg3 : arg3.IsWhole)
    (arg4 : Memref sig .tc .vmem S8x16x128 .f32) (harg4 : arg4.IsWhole) (arg5 : Memref sig .tc .vmem S8x1024x128 .f32) (harg5 : arg5.IsWhole)
    (arg6 : Memref sig .tc .vmem S8x1024x128 .f32) (harg6 : arg6.IsWhole) (arg7 : Memref sig .tc .vmem S16x1024 .f32) (harg7 : arg7.IsWhole)
    (arg8 : Memref sig .tc .vmem S8x16x1 .f32) (harg8 : arg8.IsWhole) (arg9 : Memref sig .tc .vmem S8x16x1 .f32) (harg9 : arg9.IsWhole)
    (arg10 : Memref sig .tc .vmem S8x16x128 .f32) (harg10 : arg10.IsWhole)
    (q kn vn : Vec F S8x16x128 .f32) (kb vb : Vec F S8x1024x128 .f32)

-- The kernel's nine buffers: the query tile, the new keys and values, the cached key and value blocks, the output block, the scratch.
def at3_held (o : Vec F S16x1024 .f32) (m l : Vec F S8x16x1 .f32) (a : Vec F S8x16x128 .f32) : sProp 𝕄 :=
  iprop(owns (c : Thread nD τ) arg2 fullShare q ∗ owns (c : Thread nD τ) arg3 fullShare kn ∗ owns (c : Thread nD τ) arg4 fullShare vn
    ∗ owns (c : Thread nD τ) arg5 fullShare kb ∗ owns (c : Thread nD τ) arg6 fullShare vb ∗ owns (c : Thread nD τ) arg7 fullShare o
    ∗ owns (c : Thread nD τ) arg8 fullShare m ∗ owns (c : Thread nD τ) arg9 fullShare l ∗ owns (c : Thread nD τ) arg10 fullShare a)

-- The first cached block of a head tile: the scratch is reset, then the block is folded in.
theorem at3_first (hi : (i 1).val = 0) (o : Vec F S16x1024 .f32) (m l : Vec F S8x16x1 .f32) (a : Vec F S8x16x128 .f32) (K : PUnit → sProp 𝕄) :
    iprop(at3_held c arg2 arg3 arg4 arg5 arg6 arg7 arg8 arg9 arg10 q kn vn kb vb o m l a
        ∗ (at3_held c arg2 arg3 arg4 arg5 arg6 arg7 arg8 arg9 arg10 q kn vn kb vb o (stM q kb (at0M (F := F))) (stL q kb (at0M (F := F)) (at0L (F := F))) (stA q kb vb (at0M (F := F)) (at0A (F := F))) -∗ K ⟨⟩))
      ⊢ wp frame (wpE (defs₀ (F := F)) Variants.none c none) E
        (cc3__attn_kernel i arg2 harg2 arg3 harg3 arg4 harg4 arg5 harg5 arg6 harg6 arg7 harg7 arg8 harg8 arg9 harg9 arg10 harg10) K := by
  have hc0 := (at_cond i).1.2 hi
  have hc1 := mt (at_cond i).2.1 (by omega)
  simp only [at3_held, cc3__attn_kernel_eq_skeleton, at_owns_unread c harg2, at_owns_unread c harg3, at_owns_unread c harg4,
    at_owns_unread c harg5, at_owns_unread c harg6, at_owns_unread c harg7, at_owns_unread c harg8, at_owns_unread c harg9, at_owns_unread c harg10]
  unfold cc3__attn_kernel_skel
  iintro ⟨⟨H2, H3, H4, H5, H6, H7, H8, H9, H10⟩, Hk⟩
  sl_exec (disch := first | exact hc0 | exact hc1)
  sl_step
  sl_unfold_words
  simp (config := { proj := false }) only [at_readAt_unread, at_readCov_whole, at_writes_unread, stM, stL, stA]
  iapply Hk
  iframe

-- A middle cached block: the block is folded in.
theorem at3_mid (hi0 : (i 1).val ≠ 0) (hi7 : (i 1).val ≠ 7) (o : Vec F S16x1024 .f32) (m l : Vec F S8x16x1 .f32) (a : Vec F S8x16x128 .f32) (K : PUnit → sProp 𝕄) :
    iprop(at3_held c arg2 arg3 arg4 arg5 arg6 arg7 arg8 arg9 arg10 q kn vn kb vb o m l a
        ∗ (at3_held c arg2 arg3 arg4 arg5 arg6 arg7 arg8 arg9 arg10 q kn vn kb vb o (stM q kb m) (stL q kb m l) (stA q kb vb m a) -∗ K ⟨⟩))
      ⊢ wp frame (wpE (defs₀ (F := F)) Variants.none c none) E
        (cc3__attn_kernel i arg2 harg2 arg3 harg3 arg4 harg4 arg5 harg5 arg6 harg6 arg7 harg7 arg8 harg8 arg9 harg9 arg10 harg10) K := by
  have hc0 := mt (at_cond i).1.1 hi0
  have hc1 := mt (at_cond i).2.1 hi7
  simp only [at3_held, cc3__attn_kernel_eq_skeleton, at_owns_unread c harg2, at_owns_unread c harg3, at_owns_unread c harg4,
    at_owns_unread c harg5, at_owns_unread c harg6, at_owns_unread c harg7, at_owns_unread c harg8, at_owns_unread c harg9, at_owns_unread c harg10]
  unfold cc3__attn_kernel_skel
  iintro ⟨⟨H2, H3, H4, H5, H6, H7, H8, H9, H10⟩, Hk⟩
  sl_exec (disch := first | exact hc0 | exact hc1)
  sl_step
  sl_unfold_words
  simp (config := { proj := false }) only [at_readAt_unread, at_readCov_whole, at_writes_unread, stM, stL, stA]
  iapply Hk
  iframe

-- The last cached block: the block is folded in, then the new tile, and the output block is written.
theorem at3_last (hi : (i 1).val = 7) (o : Vec F S16x1024 .f32) (m l : Vec F S8x16x1 .f32) (a : Vec F S8x16x128 .f32) (K : PUnit → sProp 𝕄) :
    iprop(at3_held c arg2 arg3 arg4 arg5 arg6 arg7 arg8 arg9 arg10 q kn vn kb vb o m l a
        ∗ (at3_held c arg2 arg3 arg4 arg5 arg6 arg7 arg8 arg9 arg10 q kn vn kb vb (outB q kn vn (stM q kb m) (stL q kb m l) (stA q kb vb m a)) (mgM q kn (stM q kb m)) (mgL q kn (stM q kb m) (stL q kb m l)) (mgA q kn vn (stM q kb m) (stA q kb vb m a)) -∗ K ⟨⟩))
      ⊢ wp frame (wpE (defs₀ (F := F)) Variants.none c none) E
        (cc3__attn_kernel i arg2 harg2 arg3 harg3 arg4 harg4 arg5 harg5 arg6 harg6 arg7 harg7 arg8 harg8 arg9 harg9 arg10 harg10) K := by
  have hc0 := mt (at_cond i).1.1 (by omega)
  have hc1 := (at_cond i).2.2 hi
  simp only [at3_held, cc3__attn_kernel_eq_skeleton, at_owns_unread c harg2, at_owns_unread c harg3, at_owns_unread c harg4,
    at_owns_unread c harg5, at_owns_unread c harg6, at_owns_unread c harg7, at_owns_unread c harg8, at_owns_unread c harg9, at_owns_unread c harg10]
  unfold cc3__attn_kernel_skel
  iintro ⟨⟨H2, H3, H4, H5, H6, H7, H8, H9, H10⟩, Hk⟩
  sl_exec (disch := first | exact hc0 | exact hc1)
  sl_step
  sl_unfold_words
  simp (config := { proj := false }) only [at_readAt_unread, at_readCov_whole, at_writes_unread, outB, mgM, mgL, mgA, stM, stL, stA]
  iapply Hk
  iframe

end Cert.Kernel.Hand

end
-- ==== Proof.KBRegion3.lean ====
import proofs.«404056_j317827580171_3_alg».proof.Proof.Gen.Kernel.Launch
import proofs.«404056_j317827580171_3_alg».proof.Proof.Gen.Kernel.Skeleton
import proofs.«404056_j317827580171_3_alg».proof.Proof.Gen.Kernel.Points
import proofs.«404056_j317827580171_3_alg».proof.Proof.KBAttnDefs
import proofs.«404056_j317827580171_3_alg».proof.Proof.KBBodyAttn
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
section
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev Sc3 (F : FTy → Type) [FloatOps F] : Type := Vec F S8x16x1 .f32 × Vec F S8x16x1 .f32 × Vec F S8x16x128 .f32

abbrev sc3Init : Sc3 F := (at0M (F := F), at0L (F := F), at0A (F := F))

def stepAt (c : Dev nD) (t : Fin cfg3.N) (s : Sc3 F) : Sc3 F :=
  (stM (iblk3 V c 0 t) (iblk3 V c 3 t) s.1,
   stL (iblk3 V c 0 t) (iblk3 V c 3 t) s.1 s.2.1,
   stA (iblk3 V c 0 t) (iblk3 V c 3 t) (iblk3 V c 4 t) s.1 s.2.2)

def mergeAt (c : Dev nD) (t : Fin cfg3.N) (s : Sc3 F) : Sc3 F :=
  (mgM (iblk3 V c 0 t) (iblk3 V c 1 t) s.1,
   mgL (iblk3 V c 0 t) (iblk3 V c 1 t) s.1 s.2.1,
   mgA (iblk3 V c 0 t) (iblk3 V c 1 t) (iblk3 V c 2 t) s.1 s.2.2)

def st3 (c : Dev nD) : (n : ℕ) → n < cfg3.N → Sc3 F
  | 0, hn => stepAt V c ⟨0, hn⟩ sc3Init
  | n + 1, hn =>
    if (n + 1) % 8 = 0 then stepAt V c ⟨n + 1, hn⟩ sc3Init
    else if (n + 1) % 8 = 7 then mergeAt V c ⟨n + 1, hn⟩ (stepAt V c ⟨n + 1, hn⟩ (st3 c n (Nat.lt_of_succ_lt hn)))
    else stepAt V c ⟨n + 1, hn⟩ (st3 c n (Nat.lt_of_succ_lt hn))

def st3Before (c : Dev nD) (t : Fin cfg3.N) : Sc3 F :=
  if h : t.val % 8 = 0 then sc3Init else st3 V c (t.val - 1) (Nat.lt_of_le_of_lt (Nat.sub_le _ _) t.isLt)

theorem st3_first (c : Dev nD) (t : Fin cfg3.N) (h : t.val % 8 = 0) :
    st3 V c t.val t.isLt = stepAt V c t sc3Init := by
  obtain ⟨n, hn⟩ := t
  cases n with
  | zero => exact rfl
  | succ n => exact (if_pos h).trans rfl
theorem st3_mid (c : Dev nD) (t : Fin cfg3.N) (h0 : t.val % 8 ≠ 0) (h7 : t.val % 8 ≠ 7) :
    st3 V c t.val t.isLt = stepAt V c t (st3 V c (t.val - 1) (Nat.lt_of_le_of_lt (Nat.sub_le _ _) t.isLt)) := by
  obtain ⟨n, hn⟩ := t
  cases n with
  | zero => exact absurd (Nat.zero_mod _) h0
  | succ n => exact (if_neg h0).trans ((if_neg h7).trans rfl)
theorem st3_last (c : Dev nD) (t : Fin cfg3.N) (h : t.val % 8 = 7) :
    st3 V c t.val t.isLt
      = mergeAt V c t (stepAt V c t (st3 V c (t.val - 1) (Nat.lt_of_le_of_lt (Nat.sub_le _ _) t.isLt))) := by
  obtain ⟨n, hn⟩ := t
  cases n with
  | zero => exact absurd (show (0 : ℕ) % 8 = 7 from h) (by decide)
  | succ n =>
    have h0 : ¬ (n + 1) % 8 = 0 := fun e => by rw [show (⟨n + 1, hn⟩ : Fin cfg3.N).val = n + 1 from rfl] at h; omega
    exact (if_neg h0).trans ((if_pos h).trans rfl)

def out3 (c : Dev nD) (t : Fin cfg3.N) : Vec F S16x1024 .f32 :=
  outB (iblk3 V c 0 t) (iblk3 V c 1 t) (iblk3 V c 2 t)
    (stepAt V c t (st3Before V c t)).1 (stepAt V c t (st3Before V c t)).2.1 (stepAt V c t (st3Before V c t)).2.2

abbrev scM3_0 : Memref sig .tc .vmem S8x16x1 .f32 := Memref.whole cc3_scratch0
abbrev scM3_1 : Memref sig .tc .vmem S8x16x1 .f32 := Memref.whole cc3_scratch1
abbrev scM3_2 : Memref sig .tc .vmem S8x16x128 .f32 := Memref.whole cc3_scratch2

-- The scratch at a state, the other scoped buffers unopened, the generator register at some state.
def scr3 (c : Dev nD) (s : Sc3 F) : sProp 𝕄 :=
  iprop(owns (c : Thread nD τ) scM3_0 fullShare s.1 ∗ owns (c : Thread nD τ) scM3_1 fullShare s.2.1 ∗ owns (c : Thread nD τ) scM3_2 fullShare s.2.2
    ∗ Pipeline.scopedRestBut (Ix := Unit) (Name := ℕ) (U := UR sig nD τ) (Lvl := ℕ) (Val := Elt F) spec3 c [cc3_scratch0, cc3_scratch1, cc3_scratch2]
    ∗ (∃ r, prngReg c r))

-- The call's invariant before position `n`: what the launch hands it, then the scratch at what the point before left.
def Phi3 (c : Dev nD) : (n : ℕ) → n ≤ cfg3.N → sProp 𝕄
  | 0, _ => Pipeline.ΦA spec3 c
  | n + 1, hn => scr3 c (st3 V c n hn)

theorem Phi3_pos (c : Dev nD) (n : ℕ) (h : n ≤ cfg3.N) (hz : n ≠ 0) : Phi3 V c n h = scr3 c (st3 V c (n - 1) (by omega)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3 V c t
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem after3_5 (c : Dev nD) (t : Fin cfg3.N) : (dat3 V c).after 5 t = out3 V c t := by dsimp only [dat3]

theorem scopedRest3_split (c : Dev nD) :
    (Pipeline.scopedRest (Ix := Unit) (Name := ℕ) (U := UR sig nD τ) (Lvl := ℕ) (Val := Elt F) spec3 c : sProp 𝕄)
      = iprop(iprop((∃ f : Buf (Elt F) ((c : Thread nD τ).loc cc3_scratch0), ((c : Thread nD τ).loc cc3_scratch0) ↦{fullShare} f)
            ∗ (∃ f : Buf (Elt F) ((c : Thread nD τ).loc cc3_scratch1), ((c : Thread nD τ).loc cc3_scratch1) ↦{fullShare} f)
            ∗ (∃ f : Buf (Elt F) ((c : Thread nD τ).loc cc3_scratch2), ((c : Thread nD τ).loc cc3_scratch2) ↦{fullShare} f))
          ∗ Pipeline.scopedRestBut (Ix := Unit) (Name := ℕ) (U := UR sig nD τ) (Lvl := ℕ) (Val := Elt F) spec3 c [cc3_scratch0, cc3_scratch1, cc3_scratch2]) :=
  Pipeline.scopedRest_split_of_list spec3 c [cc3_scratch0, cc3_scratch1, cc3_scratch2] (by decide) (by decide)

-- The launch's invariant is the scratch at some state with the rest.
theorem PhiA3_iff (c : Dev nD) : (Pipeline.ΦA (Val := Elt F) (U := UR sig nD τ) spec3 c : sProp 𝕄) ⊣⊢ iprop(∃ s, scr3 c s) := by
  unfold Pipeline.ΦA scr3
  rw [scopedRest3_split]
  simp only [scM3_0, scM3_1, scM3_2, owns_whole]
  constructor
  · iintro ⟨⟨⟨⟨%d0, H0⟩, ⟨%d1, H1⟩, ⟨%d2, H2⟩⟩, Hrest⟩, Hg⟩
    iexists (d0, d1, d2)
    iframe
  · iintro ⟨%s, H0, H1, H2, Hrest, Hg⟩
    iframe
    isplitl [H0]; · iexists _; iexact H0
    isplitl [H1]; · iexists _; iexact H1
    iexists _; iexact H2

-- Before any point the invariant gives the scratch at some state.
theorem Phi3_forget (c : Dev nD) (n : ℕ) (h : n ≤ cfg3.N) : Phi3 V c n h ⊢ iprop(∃ s, scr3 c s) := by
  cases n with
  | zero => exact (PhiA3_iff c).1
  | succ n => exact exists_intro (Φ := fun s => scr3 c s) _

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (c : Dev nD) (t : Fin cfg3.N) (d) : (dat3 V c).before 2 t d = iblk3 V c 2 t :=
  (dat3 V c).before_in_eq_fetched 2 rfl (fun _ => rfl) (fun _ _ _ => rfl) (fun _ => rfl) t d
theorem before3_3 (c : Dev nD) (t : Fin cfg3.N) (d) : (dat3 V c).before 3 t d = iblk3 V c 3 t :=
  (dat3 V c).before_in_eq_fetched 3 rfl (fun _ => rfl) (fun _ _ _ => rfl) (fun _ => rfl) t d
theorem before3_4 (c : Dev nD) (t : Fin cfg3.N) (d) : (dat3 V c).before 4 t d = iblk3 V c 4 t :=
  (dat3 V c).before_in_eq_fetched 4 rfl (fun _ => rfl) (fun _ _ _ => rfl) (fun _ => rfl) t d

theorem sched3 (t : Fin cfg3.N) : ((grid3.coords t) 1).val = t.val % 8 ∧ cfg3.idle 5 (grid3.coords t) = decide (t.val % 8 ≠ 7) :=
  (by decide +kernel : ∀ t : Fin grid3.N, ((grid3.coords t) 1).val = t.val % 8 ∧ idle3 5 (grid3.coords t) = decide (t.val % 8 ≠ 7)) t
theorem noFlush3_5 (t : Fin cfg3.N) (h : t.val % 8 ≠ 7) : (cfg3.win 5).flush t = false := by
  cases hf : (cfg3.win 5).flush t with
  | false => rfl
  | true => exact absurd ((flush3_5 t).mp hf) h

-- The body at any point: the first, a middle or the last cached block of a head tile.
theorem sound_body3 (c : Dev nD) (t : Fin cfg3.N) :
    iprop(Phi3 V c t.val (Nat.le_of_lt t.isLt) ∗ (dat3 V c).owesAt () t.castSucc
      ∗ (∃ d, owns (c : Thread nD τ) (st3_0 t) fullShare ((dat3 V c).before 0 t d))
      ∗ (∃ d, owns (c : Thread nD τ) (st3_1 t) fullShare ((dat3 V c).before 1 t d))
      ∗ (∃ d, owns (c : Thread nD τ) (st3_2 t) fullShare ((dat3 V c).before 2 t d))
      ∗ (∃ d, owns (c : Thread nD τ) (st3_3 t) fullShare ((dat3 V c).before 3 t d))
      ∗ (∃ d, owns (c : Thread nD τ) (st3_4 t) fullShare ((dat3 V c).before 4 t d))
      ∗ (∃ d, owns (c : Thread nD τ) (st3_5 t) fullShare ((dat3 V c).before 5 t d)))
    ⊢ wp frame (wpE (defs₀ (F := F)) Variants.none c none) Set.univ (bodyAt3 t) (fun _ =>
      iprop(scr3 c (st3 V c t.val t.isLt) ∗ (dat3 V c).owesAt () t.castSucc
        ∗ owns (c : Thread nD τ) (st3_0 t) fullShare (iblk3 V c 0 t) ∗ owns (c : Thread nD τ) (st3_1 t) fullShare (iblk3 V c 1 t)
        ∗ owns (c : Thread nD τ) (st3_2 t) fullShare (iblk3 V c 2 t) ∗ owns (c : Thread nD τ) (st3_3 t) fullShare (iblk3 V c 3 t)
        ∗ owns (c : Thread nD τ) (st3_4 t) fullShare (iblk3 V c 4 t) ∗ (dat3 V c).leavesExact 5 t)) := by
  unfold bodyAt3
  simp only [before3_0, before3_1, before3_2, before3_3, before3_4]
  have hN : t.val < 32 := lt_of_lt_of_eq t.isLt (show cfg3.N = 32 from N_3)
  by_cases h0 : t.val % 8 = 0
  · have h7 : t.val % 8 ≠ 7 := by omega
    rw [Dat.leavesExact_idle (dat3 V c) 5 t ((sched3 t).2.trans (decide_eq_true h7)) (noFlush3_5 t h7), st3_first V c t h0]
    iintro ⟨HΦ, Ho, ⟨%d0, H0⟩, ⟨%d1, H1⟩, ⟨%d2, H2⟩, ⟨%d3, H3⟩, ⟨%d4, H4⟩, ⟨%d5, H5⟩⟩
    icases (Phi3_forget V c t.val (Nat.le_of_lt t.isLt)) $$ HΦ with ⟨%s, HS⟩
    simp only [scr3, stepAt]
    icases HS with ⟨HS0, HS1, HS2, Hrest, Hg⟩
    iapply (at3_first (hi := (sched3 t).1.trans h0))
    simp only [at3_held]
    iframe
    iintro ⟨H0, H1, H2, H3, H4, H5, HS0, HS1, HS2⟩
    iframe
    iexists _; iexact H5
  · have hz : t.val ≠ 0 := fun e => h0 (by rw [e])
    rw [Phi3_pos V c _ _ hz]
    by_cases h7 : t.val % 8 = 7
    · rw [show (dat3 V c).leavesExact 5 t = owns (c : Thread nD τ) (st3_5 t) fullShare ((dat3 V c).after 5 t) from by
        unfold Dat.leavesExact; rw [(sched3 t).2.trans (decide_eq_false (not_not.2 h7))], after3_5, st3_last V c t h7,
        show out3 V c t = _ from by unfold out3 st3Before; rw [dif_neg h0]]
      simp only [scr3, mergeAt, stepAt]
      iintro ⟨⟨HS0, HS1, HS2, Hrest, Hg⟩, Ho, ⟨%d0, H0⟩, ⟨%d1, H1⟩, ⟨%d2, H2⟩, ⟨%d3, H3⟩, ⟨%d4, H4⟩, ⟨%d5, H5⟩⟩
      iapply (at3_last (hi := (sched3 t).1.trans h7))
      simp only [at3_held]
      iframe
      iintro ⟨H0, H1, H2, H3, H4, H5, HS0, HS1, HS2⟩
      iframe
    · rw [Dat.leavesExact_idle (dat3 V c) 5 t ((sched3 t).2.trans (decide_eq_true h7)) (noFlush3_5 t h7), st3_mid V c t h0 h7]
      simp only [scr3, stepAt]
      iintro ⟨⟨HS0, HS1, HS2, Hrest, Hg⟩, Ho, ⟨%d0, H0⟩, ⟨%d1, H1⟩, ⟨%d2, H2⟩, ⟨%d3, H3⟩, ⟨%d4, H4⟩, ⟨%d5, H5⟩⟩
      iapply (at3_mid (hi0 := (sched3 t).1 ▸ h0) (hi7 := (sched3 t).1 ▸ h7))
      simp only [at3_held]
      iframe
      iintro ⟨H0, H1, H2, H3, H4, H5, HS0, HS1, HS2⟩
      iframe
      iexists _; iexact H5

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := Entails.of_eq rfl

theorem hout3 (c : Dev nD) : (dat3 V c).Φ (Fin.last cfg3.N) ⊢ Pipeline.ΦA (Val := Elt F) (U := UR sig nD τ) spec3 c :=
  (Phi3_forget V c (Fin.last cfg3.N).val _).trans (PhiA3_iff c).2

end

end Cert.Kernel.Hand

end
-- ==== Proof.KBRun.lean ====
import proofs.«404056_j317827580171_3_alg».proof.Proof.Gen.Kernel.Launch
import proofs.«404056_j317827580171_3_alg».proof.Proof.KBRegion0
import proofs.«404056_j317827580171_3_alg».proof.Proof.KBRegion1
import proofs.«404056_j317827580171_3_alg».proof.Proof.KBRegion2
import proofs.«404056_j317827580171_3_alg».proof.Proof.KBRegion3
import Idealize.ShloMosaic.Lib.Pipeline.RegionsLoop
import Idealize.ShloMosaic.Lib.Pipeline.FrameSuffix

noncomputable section

namespace Cert.Kernel.Hand

open Cert.Kernel Cert.Kernel.Gen Cert.Kernel.HandR1 Cert.Kernel.HandR2
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg BodyObligation)

variable {F : FTy → Type} [FloatOps F]

local notation "𝕄" => MT nD τ sig Unit (Elt F) ℕ (UR sig nD τ) ℕ

abbrev adm : (p : Fin 4) → (pcfgs (F := F) p).Adm := fun p => (cfgs p).toPCfg_adm
abbrev cf (F : FTy → Type) [FloatOps F] (p : Fin 4) : Cfg sig Λ₀ := Pipeline.pin (pcfgs (F := F)) adm p
abbrev 𝒱₀ : Variants := Variants.none
abbrev L : GSem nD τ sig → Finset Unit := fun _ => ∅
abbrev lv : GSem nD τ sig → Unit → ℕ := fun _ _ => 0
abbrev Tn (c : Dev nD) (W : Valuation τ sig (Elt F)) : sProp 𝕄 :=
  iprop(StableHlo.held (c : Thread nD τ) (Pipeline.ucRefs τ sig) W ∗ ∃ r, prngReg c r)
abbrev T (c : Dev nD) (W : Valuation τ sig (Elt F)) : sProp 𝕄 :=
  iprop(Tn c W ∗ ∃ O, owes (c : Thread nD τ) (0 : CellTallies nD τ sig Unit) O)

set_option backward.isDefEq.respectTransparency.types false in
def reg (pd : (p : Fin 4) → (c : Dev nD) → Dat τ (Elt F) Unit ℕ (UR sig nD τ) ℕ (cf F p) c)
    (p : Fin 4) (la : Pipeline.LaunchFacts (nD := nD) (τ := τ) cfgs p) (V : Dev nD → Valuation τ sig (Elt F))
    (hbody : ∀ c, BodyObligation (pd p c) (defs₀ (F := F)) 𝒱₀ () Set.univ)
    (hin : ∀ c, Pipeline.ΦA (cf F p).spec c ⊢ (pd p c).Φ 0)
    (hout : ∀ c, (pd p c).Φ (Fin.last (cf F p).N) ⊢ Pipeline.ΦA (cf F p).spec c)
    (hA : ∀ c w, (pd p c).A w = V c (Pipeline.arrRef (cf F p).spec w) := by exact fun _ _ => rfl)
    (hq : ∀ c w, (pd p c).q w = fullShare := by exact fun _ _ => rfl)
    (howed : ∀ c t, (pd p c).owed t = 0 := by exact fun _ _ => rfl)
    (hrec : ∀ c, (pd p c).recorded 0 = Set.univ := by exact fun _ => rfl) :
    Pipeline.RegionSeg (pcfgs (F := F)) adm pd () defs₀ 𝒱₀ L lv p where
  win := la.win.to₀
  block_pos := la.block_pos
  stage_whole := la.stage_whole
  K := PEmpty
  osem k := k.elim
  ho := Pipeline.OwnSemFacts.none _
  hbody c := (hbody c).loose
  hwaits := Pipeline.hwaits_of_owed_zero _ _ _ _ L lv p howed
  pre c := T c (V c)
  post c := T c (Pipeline.withArrays (cf F p).spec c (V c) fun w => (pd p c).arrAt w (cf F p).N)
  X c := iprop(∃ r, prngReg c r)
  Y c := iprop(∃ r, prngReg c r)
  Z c := Pipeline.unscopedRest (cf F p).spec c fun b => V c b
  hentry c := by
    unfold Pipeline.Dat.owesAt Pipeline.owesWithin
    rw [Pipeline.ownSems0_none, howed c]
    have hsplit := Pipeline.arrays_of_unscopedBufs (p := p) (pcfgs (F := F)) adm pd la.win la.arr_whole c
      ((pd p c).share_full (hq c)) (fun b => V c b) (hA c)
    rw [Pipeline.unscopedBufs_held] at hsplit
    iintro ⟨⟨⟨Hub, Hp⟩, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    icases HO with ⟨%W, HO⟩; iexists W; isplitr; · ipureintro; exact fun _ _ => Or.inl (by rw [hrec c]; trivial)
    iexact HO
  hin c := by
    iintro ⟨Hp, -, Hr⟩
    iapply hin c
    unfold Pipeline.ΦA
    iframe
  hout c := by
    rw [Pipeline.ownSems0_none]
    iintro HΦ
    ihave H := (hout c) $$ HΦ
    unfold Pipeline.ΦA
    icases H with ⟨Hr, Hp⟩
    iframe; iempintro
  hexit c := by
    unfold Pipeline.Dat.owesAt Pipeline.owesWithin
    rw [howed c]
    have hjoin := Pipeline.unscopedBufs_of_arrays (p := p) (pcfgs (F := F)) adm
      la.win la.arr_whole c pd ((pd p c).share_full (hq c)) (fun b => V c b)
      (fun b => Pipeline.withArrays (cf F p).spec c (V c) (fun w => (pd p c).arrAt w (cf F p).N) b) ((pd p c).arrAt · (cf F p).N)
      (fun w => (Pipeline.withArrays_arr (cf F p).spec la.win.arr_inj c (V c) ((pd p c).arrAt · (cf F p).N) w).symm)
      fun b hb => Pipeline.withArrays_of_ne _ c _ _ b fun w e => hb (Finset.mem_image.mpr ⟨w, Finset.mem_univ _, e⟩)
    rw [Pipeline.unscopedBufs_held] at hjoin
    iintro ⟨Ha, HO, HY, Hrest⟩
    imodintro
    isplitl [Ha Hrest HY]
    · isplitl [Ha Hrest]
      · iapply hjoin; iframe
      iexact HY
    icases HO with ⟨%W, -, HO⟩; iexists W; iexact HO

variable (m : (ℓ : Loc nD τ sig) → Buf (Elt F) ℓ) (ρ : Dev nD → PrngReg)

abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N :=
  Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) :=
  Pipeline.withArrays_of_ne spec0 c _ _ b hb
abbrev V1 : (c : Dev nD) → (b : Ref sig .tc) → Buf (Elt F) ((c : Thread nD τ).loc b) := fun c b => W1 m ρ c b
/-- An input array of a call is left as the call found it. -/
theorem W1_in (c : Dev nD) (w : Fin cfg0.W) (hw : (cfg0.win w).isOut = false := by rfl) :
    W1 m ρ c (Proc.devRef .tc (Pipeline.arrRef spec0 w)) = W0 m ρ c (Proc.devRef .tc (Pipeline.arrRef spec0 w)) :=
  (W1_arr m ρ c w).trans (((dat0 (V0 m ρ) c).arrAt_in w hw _).trans (A_eq0 (V0 m ρ) c w))

def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N :=
  Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) :=
  Pipeline.withArrays_of_ne spec1 c _ _ b hb
abbrev V2 : (c : Dev nD) → (b : Ref sig .tc) → Buf (Elt F) ((c : Thread nD τ).loc b) := fun c b => W2 m ρ c b
theorem W2_in (c : Dev nD) (w : Fin cfg1.W) (hw : (cfg1.win w).isOut = false := by rfl) :
    W2 m ρ c (Proc.devRef .tc (Pipeline.arrRef spec1 w)) = W1 m ρ c (Proc.devRef .tc (Pipeline.arrRef spec1 w)) :=
  (W2_arr m ρ c w).trans (((dat1 (V1 m ρ) c).arrAt_in w hw _).trans (A_eq1 (V1 m ρ) c w))

def W3 (c : Dev nD) : Valuation τ sig (Elt F) :=
  Pipeline.withArrays spec2 c (W2 m ρ c) fun w => (dat2 (V2 m ρ) c).arrAt w cfg2.N
theorem W3_arr (c : Dev nD) (w : Fin cfg2.W) :
    W3 m ρ c (Proc.devRef .tc (Pipeline.arrRef spec2 w)) = (dat2 (V2 m ρ) c).arrAt w cfg2.N :=
  Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) :=
  Pipeline.withArrays_of_ne spec2 c _ _ b hb
abbrev V3 : (c : Dev nD) → (b : Ref sig .tc) → Buf (Elt F) ((c : Thread nD τ).loc b) := fun c b => W3 m ρ c b
theorem W3_in (c : Dev nD) (w : Fin cfg2.W) (hw : (cfg2.win w).isOut = false := by rfl) :
    W3 m ρ c (Proc.devRef .tc (Pipeline.arrRef spec2 w)) = W2 m ρ c (Proc.devRef .tc (Pipeline.arrRef spec2 w)) :=
  (W3_arr m ρ c w).trans (((dat2 (V2 m ρ) c).arrAt_in w hw _).trans (A_eq2 (V2 m ρ) c w))

def W4 (c : Dev nD) : Valuation τ sig (Elt F) :=
  Pipeline.withArrays spec3 c (W3 m ρ c) fun w => (dat3 (V3 m ρ) c).arrAt w cfg3.N
theorem W4_arr (c : Dev nD) (w : Fin cfg3.W) :
    W4 m ρ c (Proc.devRef .tc (Pipeline.arrRef spec3 w)) = (dat3 (V3 m ρ) c).arrAt w cfg3.N :=
  Pipeline.withArrays_arr spec3 launch3.win.arr_inj c _ _ w
theorem W4_of_ne (c : Dev nD) (b : Ref sig .tc) (hb : ∀ w, Pipeline.arrRef spec3 w ≠ b) :
    W4 m ρ c (Proc.devRef .tc b) = W3 m ρ c (Proc.devRef .tc b) :=
  Pipeline.withArrays_of_ne spec3 c _ _ b hb
theorem W4_in (c : Dev nD) (w : Fin cfg3.W) (hw : (cfg3.win w).isOut = false := by rfl) :
    W4 m ρ c (Proc.devRef .tc (Pipeline.arrRef spec3 w)) = W3 m ρ c (Proc.devRef .tc (Pipeline.arrRef spec3 w)) :=
  (W4_arr m ρ c w).trans (((dat3 (V3 m ρ) c).arrAt_in w hw _).trans (A_eq3 (V3 m ρ) c w))

def pdats : (p : Fin 4) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
  | ⟨3, _⟩ => fun c => dat3 (V3 m ρ) c

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
abbrev segs : List (Pipeline.Seg (pcfgs (F := F)) adm (pdats m ρ) () defs₀ 𝒱₀ L lv) :=
  [ .region (reg (pdats m ρ) 0 launch0 (W0 m ρ) (body_obligation0 (V0 m ρ)) (hin0 (V0 m ρ)) (hout0 (V0 m ρ))),
    .region (reg (pdats m ρ) 1 launch1 (W1 m ρ) (body_obligation1 (V1 m ρ)) (hin1 (V1 m ρ)) (hout1 (V1 m ρ))),
    .region (reg (pdats m ρ) 2 launch2 (W2 m ρ) (body_obligation2 (V2 m ρ)) (hin2 (V2 m ρ)) (hout2 (V2 m ρ))),
    .region (reg (pdats m ρ) 3 launch3 (W3 m ρ) (body_obligation3 (V3 m ρ)) (hin3 (V3 m ρ)) (hout3 (V3 m ρ))) ]

set_option backward.isDefEq.respectTransparency.types false in
/-- @main terminates without fault; the result is the last call's final output array, and no call writes an argument. -/
theorem run_main : θ_run defs (onTc (τ := τ) (main (F := F))) ⟨m, fun _ => 0, ρ⟩ (fun r => ∀ c : Dev nD,
      r.2.mem ((c.tc : Thread nD τ).loc main_v3) = (dat3 (V3 m ρ) c).arrAt 5 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [show main (F := F) c = Pipeline.Seg.run (segs m ρ) from main_segs adm _ () 𝒱₀ L lv _ _ _ _ c])
    (by simp only [segs, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ _) from .rfl); iexact Hu
      iapply (show (BI.emp : sProp 𝕄) ⊢ bigSep Finset.univ (fun _ : Dev nD => (BI.emp : sProp 𝕄)) from by rw [BI.bigSep_emp_const])
      iempintro)
    (T₀ := fun c => T c (W0 m ρ c)) (Tₙ := fun c => Tn c (W4 m ρ c))
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh Hp]
      · isplitl [Hh]; · iexact Hh
        iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      iframe)
    (hQ := fun s h c => have e b hb := h c _ (mem_uc b hb)
      ⟨(e main_v3 (by decide)).trans (W4_arr m ρ c 5),
       (e main_arg0 (by decide)).trans <| (W4_of_ne m ρ c main_arg0 (by decide)).trans <| (W3_in m ρ c 0).trans <| (W2_in m ρ c 0).trans <| W1_in m ρ c 0,
       (e main_arg1 (by decide)).trans <| (W4_of_ne m ρ c main_arg1 (by decide)).trans <| (W3_of_ne m ρ c main_arg1 (by decide)).trans <| (W2_of_ne m ρ c main_arg1 (by decide)).trans <| W1_in m ρ c 1,
       (e main_arg2 (by decide)).trans <| (W4_of_ne m ρ c main_arg2 (by decide)).trans <| (W3_of_ne m ρ c main_arg2 (by decide)).trans <| (W2_in m ρ c 1).trans <| W1_of_ne m ρ c main_arg2 (by decide),
       (e main_arg3 (by decide)).trans <| (W4_of_ne m ρ c main_arg3 (by decide)).trans <| (W3_in m ρ c 1).trans <| (W2_of_ne m ρ c main_arg3 (by decide)).trans <| W1_of_ne m ρ c main_arg3 (by decide),
       (e main_arg4 (by decide)).trans <| (W4_in m ρ c 3).trans <| (W3_of_ne m ρ c main_arg4 (by decide)).trans <| (W2_of_ne m ρ c main_arg4 (by decide)).trans <| W1_of_ne m ρ c main_arg4 (by decide),
       (e main_arg5 (by decide)).trans <| (W4_in m ρ c 4).trans <| (W3_of_ne m ρ c main_arg5 (by decide)).trans <| (W2_of_ne m ρ c main_arg5 (by decide)).trans <| W1_of_ne m ρ c main_arg5 (by decide)⟩)

end Cert.Kernel.Hand

end
-- ==== Proof.KIBodyMM0.lean ====
import proofs.«404056_j317827580171_3_alg».proof.Proof.Gen.KernelIdeal.Launch
import proofs.«404056_j317827580171_3_alg».proof.Proof.Gen.KernelIdeal.Skeleton
import proofs.«404056_j317827580171_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

theorem reset_of_first (i : grid0.Coords) (hi : (i 1).val = 0) :
    Scalar.cmpi .ne (Scalar.extui (Scalar.cmpi .eq (BitVec.ofNat 32 (i 1).val) 0#32)) 0#32 = 1#1 := by
  rw [hi]; decide

theorem no_flush_of_first (i : grid0.Coords) (hi : (i 1).val = 0) : ¬ k0_cond2 i = 1#1 := by
  unfold k0_cond2; simp only [hi]; decide

theorem no_reset_of_last (i : grid0.Coords) (hi : (i 1).val = 1) :
    ¬ Scalar.cmpi .ne (Scalar.extui (Scalar.cmpi .eq (BitVec.ofNat 32 (i 1).val) 0#32)) 0#32 = 1#1 := by
  rw [hi]; decide

theorem flush_of_last (i : grid0.Coords) (hi : (i 1).val = 1) : k0_cond2 i = 1#1 := by
  unfold k0_cond2; simp only [hi]; decide

/-- A write list whose newest store goes through the whole rectangle leaves no index uncovered. -/
theorem cover_unit_zero {Val : EltTy → Type} {S : Shape} {e : EltTy} {off : Fin S.rank → Nat} (h : off = fun _ => 0)
    (inb : ∀ a, off a + S.size a ≤ S.size a) (p : S.Idx → Val e) (L : List (View.Piece Val S e)) :
    ∀ y, ∃ q ∈ ((⟨Rect.unit off S.size inb, p⟩ : View.Piece Val S e) :: L), y ∈ q.1.set :=
  fun y => ⟨_, List.mem_cons_self, View.mem_set_unit_zero h inb y⟩

/-- First K-step: the accumulator is reset first, so it ends at zeros plus this step's product; the output block is not touched. -/
theorem mm0_first (c : Dev nD) (E : Set ℕ) (i : grid0.Coords) (hi : (i 1).val = 0)
    (arg2 : Memref sig .tc .vmem S16x2048 .f32) (harg2 : arg2.IsWhole) (arg3 : Memref sig .tc .vmem S2048x1024 .f32) (harg3 : arg3.IsWhole)
    (arg4 : Memref sig .tc .vmem S8x16x128 .f32) (harg4 : arg4.IsWhole) (arg5 : Memref sig .tc .vmem S16x1024 .f32) (harg5 : arg5.IsWhole)
    (x : Vec F S16x2048 .f32) (w : Vec F S2048x1024 .f32) (o : Vec F S8x16x128 .f32) (K : PUnit → sProp 𝕄) :
    iprop(owns (c : Thread nD τ) arg2 fullShare x ∗ owns (c : Thread nD τ) arg3 fullShare w
        ∗ owns (c : Thread nD τ) arg4 fullShare o ∗ (∃ s, owns (c : Thread nD τ) arg5 fullShare s)
        ∗ (iprop(owns (c : Thread nD τ) arg2 fullShare x ∗ owns (c : Thread nD τ) arg3 fullShare w
            ∗ owns (c : Thread nD τ) arg4 fullShare o
            ∗ owns (c : Thread nD τ) arg5 fullShare (k0_pay2 x w (k0_pay1 (F := F)))) -∗ K ⟨⟩))
      ⊢ wp frame (wpE (defs₀ (F := F)) Variants.none c none) E (cc0__matmul_kernel i arg2 harg2 arg3 harg3 arg4 harg4 arg5 harg5) K := by
  have hc0 := reset_of_first i hi
  have hc1 := no_flush_of_first i hi
  simp only [cc0__matmul_kernel_eq_skeleton]; unfold cc0__matmul_kernel_skel
  unfold owns
  iintro ⟨⟨%f2, %hf2, H2⟩, ⟨%f3, %hf3, H3⟩, ⟨%f4, %hf4, H4⟩, ⟨%s5, %f5, -, H5⟩, Hk⟩
  obtain rfl := harg2.eq_unread hf2; obtain rfl := harg3.eq_unread hf3; obtain rfl := harg4.eq_unread hf4
  sl_exec (disch := first | exact hc0 | exact hc1)
  sl_step
  iapply Hk
  isplitl [H2]; · iexists _; iframe H2; ipureintro; exact harg2.read_unread _
  isplitl [H3]; · iexists _; iframe H3; ipureintro; exact harg3.read_unread _
  isplitl [H4]; · iexists _; iframe H4; ipureintro; exact harg4.read_unread _
  iexists _; iframe H5; ipureintro
  sl_unfold_words
  rw [View.read_writes_eq_canon _ _ _ (cover_unit_zero hz2 _ _ _)]
  rw [View.canon_cons_unit_zero (S := S16x1024) hz2, View.readCov_unit_zero (S := S16x1024) _ hz2]
  simp only [View.readAt_eq_ld, harg2.read_unread, harg3.read_unread, View.ld_unit_zero (S := S16x2048) hz2,
    View.ld_unit_zero (S := S2048x1024) hz2]

/-- Second K-step: the accumulator gains this step's product, and the output block receives that sum regrouped by heads. -/
theorem mm0_last (c : Dev nD) (E : Set ℕ) (i : grid0.Coords) (hi : (i 1).val = 1)
    (arg2 : Memref sig .tc .vmem S16x2048 .f32) (harg2 : arg2.IsWhole) (arg3 : Memref sig .tc .vmem S2048x1024 .f32) (harg3 : arg3.IsWhole)
    (arg4 : Memref sig .tc .vmem S8x16x128 .f32) (harg4 : arg4.IsWhole) (arg5 : Memref sig .tc .vmem S16x1024 .f32) (harg5 : arg5.IsWhole)
    (x : Vec F S16x2048 .f32) (w : Vec F S2048x1024 .f32) (s : Vec F S16x1024 .f32) (K : PUnit → sProp 𝕄) :
    iprop(owns (c : Thread nD τ) arg2 fullShare x ∗ owns (c : Thread nD τ) arg3 fullShare w
        ∗ (∃ o, owns (c : Thread nD τ) arg4 fullShare o) ∗ owns (c : Thread nD τ) arg5 fullShare s
        ∗ (iprop(owns (c : Thread nD τ) arg2 fullShare x ∗ owns (c : Thread nD τ) arg3 fullShare w
            ∗ owns (c : Thread nD τ) arg4 fullShare (k0_pay3 (k0_pay2 x w s))
            ∗ owns (c : Thread nD τ) arg5 fullShare (k0_pay2 x w s)) -∗ K ⟨⟩))
      ⊢ wp frame (wpE (defs₀ (F := F)) Variants.none c none) E (cc0__matmul_kernel i arg2 harg2 arg3 harg3 arg4 harg4 arg5 harg5) K := by
  have hc0 := no_reset_of_last i hi
  have hc1 := flush_of_last i hi
  simp only [cc0__matmul_kernel_eq_skeleton]; unfold cc0__matmul_kernel_skel
  unfold owns
  iintro ⟨⟨%f2, %hf2, H2⟩, ⟨%f3, %hf3, H3⟩, ⟨%o4, %f4, -, H4⟩, ⟨%f5, %hf5, H5⟩, Hk⟩
  obtain rfl := harg2.eq_unread hf2; obtain rfl := harg3.eq_unread hf3; obtain rfl := harg5.eq_unread hf5
  sl_exec (disch := first | exact hc0 | exact hc1)
  sl_step
  iapply Hk
  isplitl [H2]; · iexists _; iframe H2; ipureintro; exact harg2.read_unread _
  isplitl [H3]; · iexists _; iframe H3; ipureintro; exact harg3.read_unread _
  isplitl [H4]
  · iexists _; iframe H4; ipureintro
    sl_unfold_words
    rw [View.read_writes_eq_canon _ _ _ (cover_unit_zero hz3 _ _ _)]
    rw [View.canon_cons_unit_zero (S := S8x16x128) hz3, View.readCov_unit_zero (S := S16x1024) _ hz2]
    simp only [View.readAt_eq_ld, harg2.read_unread, harg3.read_unread, harg5.read_unread,
      View.ld_unit_zero (S := S16x2048) hz2, View.ld_unit_zero (S := S2048x1024) hz2, View.ld_unit_zero (S := S16x1024) hz2]
  iexists _; iframe H5; ipureintro
  sl_unfold_words
  rw [View.read_writes_eq_canon _ _ _ (cover_unit_zero hz2 _ _ _), View.canon_cons_unit_zero (S := S16x1024) hz2]
  simp only [View.readAt_eq_ld, harg2.read_unread, harg3.read_unread, harg5.read_unread,
    View.ld_unit_zero (S := S16x2048) hz2, View.ld_unit_zero (S := S2048x1024) hz2, View.ld_unit_zero (S := S16x1024) hz2]

end Cert.KernelIdeal.Hand

end
-- ==== Proof.KIRegion0.lean ====
import proofs.«404056_j317827580171_3_alg».proof.Proof.KIBodyMM0

noncomputable section

namespace Cert.KernelIdeal.Hand

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after point n: the K-step's product added to zeros at an even point, to the point before at an odd one. -/
def acc0 (c : Dev nD) : (n : ℕ) → n < cfg0.N → Vec F S16x1024 .f32
  | 0, hn => k0_pay2 (iblk0 V c 0 ⟨0, hn⟩) (iblk0 V c 1 ⟨0, hn⟩) k0_pay1
  | n + 1, hn => k0_pay2 (iblk0 V c 0 ⟨n + 1, hn⟩) (iblk0 V c 1 ⟨n + 1, hn⟩)
      (if (n + 1) % 2 = 0 then k0_pay1 else acc0 c n (Nat.lt_of_succ_lt hn))

theorem acc0_even (c : Dev nD) (t : Fin cfg0.N) (h : t.val % 2 = 0) :
    acc0 V c t.val t.isLt = k0_pay2 (iblk0 V c 0 t) (iblk0 V c 1 t) (k0_pay1 (F := F)) := by
  obtain ⟨_ | n, hn⟩ := t
  · rfl
  · exact congrArg (k0_pay2 _ _) (if_pos h)

theorem acc0_odd (c : Dev nD) (t : Fin cfg0.N) (h : t.val % 2 = 1) :
    acc0 V c t.val t.isLt
      = k0_pay2 (iblk0 V c 0 t) (iblk0 V c 1 t) (acc0 V c (t.val - 1) (Nat.lt_of_le_of_lt (Nat.sub_le _ _) t.isLt)) := by
  obtain ⟨_ | n, hn⟩ := t
  · exact absurd (show (0 : ℕ) % 2 = 1 from h) (by decide)
  · exact congrArg (k0_pay2 _ _) (if_neg fun e => by have : (n + 1) % 2 = 1 := h; omega)

abbrev scM0 : Memref sig .tc .vmem S16x1024 .f32 := Memref.whole cc0_scratch0

/-- Before point n the accumulator holds what point n - 1 left when n is odd; an even point resets it, so nothing is asked of it there. -/
def Phi0 (c : Dev nD) (n : ℕ) : sProp 𝕄 :=
  iprop(∃ s, ⌜n % 2 = 1 → ∃ hk, s = acc0 V c (n - 1) hk⌝ ∗ owns (c : Thread nD τ) scM0 fullShare s
    ∗ Pipeline.scopedRestBut (Ix := Unit) (Name := ℕ) (U := UR sig nD τ) (Lvl := ℕ) (Val := Elt F) spec0 c [cc0_scratch0]
    ∗ (∃ r, prngReg c r))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc0 V c t.val t.isLt)
  Φ t := Phi0 V c t.val
  q _ := fullShare
  owed _ := 0

theorem A_eq0 (c : Dev nD) (w : Fin cfg0.W) : (dat0 V c).A w = V c (Pipeline.arrRef spec0 w) := rfl
theorem after0_2 (c : Dev nD) (t : Fin cfg0.N) : (dat0 V c).after 2 t = k0_pay3 (acc0 V c t.val t.isLt) := rfl

theorem PhiA0_eq (c : Dev nD) :
    (Pipeline.ΦA spec0 c : sProp 𝕄)
      = iprop(iprop(iprop((∃ d, owns (c : Thread nD τ) scM0 fullShare d))
          ∗ Pipeline.scopedRestBut (Ix := Unit) (Name := ℕ) (U := UR sig nD τ) (Lvl := ℕ) (Val := Elt F) spec0 c [cc0_scratch0])
        ∗ (∃ r, prngReg c r)) := by
  unfold Pipeline.ΦA; rw [scopedRest0_split]; simp only [scM0, owns_whole]; try rfl

theorem idleAt0_2_even : ∀ t : Fin cfg0.N, t.val % 2 = 0 → cfg0.idle 2 (grid0.coords t) = true := by decide +kernel
theorem noFlush0_2_even : ∀ t : Fin cfg0.N, t.val % 2 = 0 → (cfg0.win 2).flush t = false := by decide +kernel
theorem liveAt0_2_odd : ∀ t : Fin cfg0.N, t.val % 2 = 1 → cfg0.idle 2 (grid0.coords t) = false := by decide +kernel
theorem kstep0_even : ∀ t : Fin grid0.N, t.val % 2 = 0 → ((grid0.coords t) 1).val = 0 := by decide +kernel
theorem kstep0_odd : ∀ t : Fin grid0.N, t.val % 2 = 1 → ((grid0.coords t) 1).val = 1 := by decide +kernel

theorem before0_0 (c : Dev nD) (t : Fin cfg0.N) (d) : (dat0 V c).before 0 t d = iblk0 V c 0 t :=
  ((dat0 V c).before_fetched 0 t (fetch0_0 t) d).trans rfl
theorem before0_1 (c : Dev nD) (t : Fin cfg0.N) (d) : (dat0 V c).before 1 t d = iblk0 V c 1 t :=
  ((dat0 V c).before_fetched 1 t (fetch0_1 t) d).trans rfl

abbrev ms0_0 (t : Fin cfg0.N) : Memref sig .tc .vmem S16x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x16x128 .f32 := win0_2.stage (cfg0.slots t 2)
abbrev hs0_2 (t : Fin cfg0.N) : (ms0_2 t).IsWhole := hstage0_2 ((cfg0.slots t 2).cast nbuf0_2)

theorem sound_body0 (c : Dev nD) (t : Fin cfg0.N) :
    iprop(Phi0 V c t.val ∗ (dat0 V c).owesAt () t.castSucc
      ∗ (∃ d, owns (c : Thread nD τ) (ms0_0 t) fullShare ((dat0 V c).before 0 t d))
      ∗ (∃ d, owns (c : Thread nD τ) (ms0_1 t) fullShare ((dat0 V c).before 1 t d))
      ∗ (∃ d, owns (c : Thread nD τ) (ms0_2 t) fullShare ((dat0 V c).before 2 t d)))
    ⊢ wp frame (wpE (defs₀ (F := F)) Variants.none c none) Set.univ (bodyAt0 t) (fun _ =>
      iprop(Phi0 V c (t.val + 1) ∗ (dat0 V c).owesAt () t.castSucc
        ∗ owns (c : Thread nD τ) (ms0_0 t) fullShare (iblk0 V c 0 t) ∗ owns (c : Thread nD τ) (ms0_1 t) fullShare (iblk0 V c 1 t)
        ∗ (dat0 V c).leavesExact 2 t)) := by
  unfold bodyAt0
  simp only [before0_0, before0_1]
  unfold Phi0
  by_cases h : t.val % 2 = 0
  · rw [Dat.leavesExact_idle (dat0 V c) 2 t (idleAt0_2_even t h) (noFlush0_2_even t h)]
    iintro ⟨⟨%s, -, HS, HR, Hg⟩, Ho, ⟨%d0, H0⟩, ⟨%d1, H1⟩, ⟨%d2, H2⟩⟩
    iapply (mm0_first c Set.univ (grid0.coords t) (kstep0_even t h) (ms0_0 t) (hs0_0 t) (ms0_1 t) (hs0_1 t) (ms0_2 t) (hs0_2 t)
      scM0 (Memref.isWhole_whole _) (iblk0 V c 0 t) (iblk0 V c 1 t) ((dat0 V c).before 2 t d2) _)
    iframe H0 H1 H2
    isplitl [HS]; · iexists s; iexact HS
    iintro ⟨H0, H1, H2, HS⟩
    isplitl [HS HR Hg]
    · iexists _; iframe HS HR Hg; ipureintro; exact fun _ => ⟨t.isLt, (acc0_even V c t h).symm⟩
    iframe Ho H0 H1
    iexists d2; iexact H2
  · have h1 : t.val % 2 = 1 := by omega
    rw [show (dat0 V c).leavesExact 2 t = owns (c : Thread nD τ) (ms0_2 t) fullShare (k0_pay3 (acc0 V c t.val t.isLt)) from by
      unfold Dat.leavesExact; rw [liveAt0_2_odd t h1]; rfl, acc0_odd V c t h1]
    iintro ⟨⟨%s, %hs, HS, HR, Hg⟩, Ho, ⟨%d0, H0⟩, ⟨%d1, H1⟩, ⟨%d2, H2⟩⟩
    obtain ⟨hk, rfl⟩ := hs h1
    iapply (mm0_last c Set.univ (grid0.coords t) (kstep0_odd t h1) (ms0_0 t) (hs0_0 t) (ms0_1 t) (hs0_1 t) (ms0_2 t) (hs0_2 t)
      scM0 (Memref.isWhole_whole _) (iblk0 V c 0 t) (iblk0 V c 1 t) (acc0 V c (t.val - 1) hk) _)
    iframe H0 H1 HS
    isplitl [H2]; · iexists _; iexact H2
    iintro ⟨H0, H1, H2, HS⟩
    isplitl [HS HR Hg]
    · iexists _; iframe HS HR Hg; ipureintro; exact fun h2 => absurd h2 (by omega)
    iframe Ho H0 H1 H2

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [PhiA0_eq, show (dat0 V c).Φ 0 = Phi0 V c 0 from rfl]; unfold Phi0
  iintro ⟨⟨⟨%d, HS⟩, HR⟩, Hg⟩
  iexists d; iframe HS HR Hg; ipureintro; exact fun h => absurd h (by decide)

theorem hout0 (c : Dev nD) : (dat0 V c).Φ (Fin.last cfg0.N) ⊢ Pipeline.ΦA (Val := Elt F) (U := UR sig nD τ) spec0 c := by
  rw [PhiA0_eq, show (dat0 V c).Φ (Fin.last cfg0.N) = Phi0 V c cfg0.N from rfl]; unfold Phi0
  iintro ⟨%s, -, HS, HR, Hg⟩
  iframe HR Hg; iexists s; iexact HS

end

end Cert.KernelIdeal.Hand

end
-- ==== Proof.KIRegion1.lean ====
import proofs.«404056_j317827580171_3_alg».proof.Proof.KIBodyMM0

noncomputable section

namespace Cert.KernelIdeal.HandR1

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after point n: the K-step's product added to zeros at an even point, to the point before at an odd one. -/
def acc1 (c : Dev nD) : (n : ℕ) → n < cfg1.N → Vec F S16x1024 .f32
  | 0, hn => k0_pay2 (iblk1 V c 0 ⟨0, hn⟩) (iblk1 V c 1 ⟨0, hn⟩) k0_pay1
  | n + 1, hn => k0_pay2 (iblk1 V c 0 ⟨n + 1, hn⟩) (iblk1 V c 1 ⟨n + 1, hn⟩)
      (if (n + 1) % 2 = 0 then k0_pay1 else acc1 c n (Nat.lt_of_succ_lt hn))

theorem acc1_even (c : Dev nD) (t : Fin cfg1.N) (h : t.val % 2 = 0) :
    acc1 V c t.val t.isLt = k0_pay2 (iblk1 V c 0 t) (iblk1 V c 1 t) (k0_pay1 (F := F)) := by
  obtain ⟨_ | n, hn⟩ := t
  · rfl
  · exact congrArg (k0_pay2 _ _) (if_pos h)

theorem acc1_odd (c : Dev nD) (t : Fin cfg1.N) (h : t.val % 2 = 1) :
    acc1 V c t.val t.isLt
      = k0_pay2 (iblk1 V c 0 t) (iblk1 V c 1 t) (acc1 V c (t.val - 1) (Nat.lt_of_le_of_lt (Nat.sub_le _ _) t.isLt)) := by
  obtain ⟨_ | n, hn⟩ := t
  · exact absurd (show (0 : ℕ) % 2 = 1 from h) (by decide)
  · exact congrArg (k0_pay2 _ _) (if_neg fun e => by have : (n + 1) % 2 = 1 := h; omega)

abbrev scM1 : Memref sig .tc .vmem S16x1024 .f32 := Memref.whole cc1_scratch0

/-- Before point n the accumulator holds what point n - 1 left when n is odd; an even point resets it, so nothing is asked of it there. -/
def Phi1 (c : Dev nD) (n : ℕ) : sProp 𝕄 :=
  iprop(∃ s, ⌜n % 2 = 1 → ∃ hk, s = acc1 V c (n - 1) hk⌝ ∗ owns (c : Thread nD τ) scM1 fullShare s
    ∗ Pipeline.scopedRestBut (Ix := Unit) (Name := ℕ) (U := UR sig nD τ) (Lvl := ℕ) (Val := Elt F) spec1 c [cc1_scratch0]
    ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k0_pay3 (acc1 V c t.val t.isLt)
  Φ t := Phi1 V c t.val
  q _ := fullShare
  owed _ := 0

theorem A_eq1 (c : Dev nD) (w : Fin cfg1.W) : (dat1 V c).A w = V c (Pipeline.arrRef spec1 w) := rfl
theorem after1_2 (c : Dev nD) (t : Fin cfg1.N) : (dat1 V c).after 2 t = k0_pay3 (acc1 V c t.val t.isLt) := rfl

theorem PhiA1_eq (c : Dev nD) :
    (Pipeline.ΦA spec1 c : sProp 𝕄)
      = iprop(iprop(iprop((∃ d, owns (c : Thread nD τ) scM1 fullShare d))
          ∗ Pipeline.scopedRestBut (Ix := Unit) (Name := ℕ) (U := UR sig nD τ) (Lvl := ℕ) (Val := Elt F) spec1 c [cc1_scratch0])
        ∗ (∃ r, prngReg c r)) := by
  unfold Pipeline.ΦA; rw [scopedRest1_split]; simp only [scM1, owns_whole]; try rfl

theorem idleAt1_2_even : ∀ t : Fin cfg1.N, t.val % 2 = 0 → cfg1.idle 2 (grid1.coords t) = true := by decide +kernel
theorem noFlush1_2_even : ∀ t : Fin cfg1.N, t.val % 2 = 0 → (cfg1.win 2).flush t = false := by decide +kernel
theorem liveAt1_2_odd : ∀ t : Fin cfg1.N, t.val % 2 = 1 → cfg1.idle 2 (grid1.coords t) = false := by decide +kernel
theorem kstep1_even : ∀ t : Fin grid1.N, t.val % 2 = 0 → ((grid1.coords t) 1).val = 0 := by decide +kernel
theorem kstep1_odd : ∀ t : Fin grid1.N, t.val % 2 = 1 → ((grid1.coords t) 1).val = 1 := by decide +kernel

theorem before1_0 (c : Dev nD) (t : Fin cfg1.N) (d) : (dat1 V c).before 0 t d = iblk1 V c 0 t :=
  ((dat1 V c).before_fetched 0 t (fetch1_0 t) d).trans rfl
theorem before1_1 (c : Dev nD) (t : Fin cfg1.N) (d) : (dat1 V c).before 1 t d = iblk1 V c 1 t :=
  ((dat1 V c).before_fetched 1 t (fetch1_1 t) d).trans rfl

abbrev ms1_0 (t : Fin cfg1.N) : Memref sig .tc .vmem S16x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x16x128 .f32 := win1_2.stage (cfg1.slots t 2)
abbrev hs1_2 (t : Fin cfg1.N) : (ms1_2 t).IsWhole := hstage1_2 ((cfg1.slots t 2).cast nbuf1_2)

theorem sound_body1 (c : Dev nD) (t : Fin cfg1.N) :
    iprop(Phi1 V c t.val ∗ (dat1 V c).owesAt () t.castSucc
      ∗ (∃ d, owns (c : Thread nD τ) (ms1_0 t) fullShare ((dat1 V c).before 0 t d))
      ∗ (∃ d, owns (c : Thread nD τ) (ms1_1 t) fullShare ((dat1 V c).before 1 t d))
      ∗ (∃ d, owns (c : Thread nD τ) (ms1_2 t) fullShare ((dat1 V c).before 2 t d)))
    ⊢ wp frame (wpE (defs₀ (F := F)) Variants.none c none) Set.univ (bodyAt1 t) (fun _ =>
      iprop(Phi1 V c (t.val + 1) ∗ (dat1 V c).owesAt () t.castSucc
        ∗ owns (c : Thread nD τ) (ms1_0 t) fullShare (iblk1 V c 0 t) ∗ owns (c : Thread nD τ) (ms1_1 t) fullShare (iblk1 V c 1 t)
        ∗ (dat1 V c).leavesExact 2 t)) := by
  unfold bodyAt1
  simp only [before1_0, before1_1]
  unfold Phi1
  by_cases h : t.val % 2 = 0
  · rw [Dat.leavesExact_idle (dat1 V c) 2 t (idleAt1_2_even t h) (noFlush1_2_even t h)]
    iintro ⟨⟨%s, -, HS, HR, Hg⟩, Ho, ⟨%d0, H0⟩, ⟨%d1, H1⟩, ⟨%d2, H2⟩⟩
    iapply (mm0_first c Set.univ (grid1.coords t) (kstep1_even t h) (ms1_0 t) (hs1_0 t) (ms1_1 t) (hs1_1 t) (ms1_2 t) (hs1_2 t)
      scM1 (Memref.isWhole_whole _) (iblk1 V c 0 t) (iblk1 V c 1 t) ((dat1 V c).before 2 t d2) _)
    iframe H0 H1 H2
    isplitl [HS]; · iexists s; iexact HS
    iintro ⟨H0, H1, H2, HS⟩
    isplitl [HS HR Hg]
    · iexists _; iframe HS HR Hg; ipureintro; exact fun _ => ⟨t.isLt, (acc1_even V c t h).symm⟩
    iframe Ho H0 H1
    iexists d2; iexact H2
  · have h1 : t.val % 2 = 1 := by omega
    rw [show (dat1 V c).leavesExact 2 t = owns (c : Thread nD τ) (ms1_2 t) fullShare (k0_pay3 (acc1 V c t.val t.isLt)) from by
      unfold Dat.leavesExact; rw [liveAt1_2_odd t h1]; rfl, acc1_odd V c t h1]
    iintro ⟨⟨%s, %hs, HS, HR, Hg⟩, Ho, ⟨%d0, H0⟩, ⟨%d1, H1⟩, ⟨%d2, H2⟩⟩
    obtain ⟨hk, rfl⟩ := hs h1
    iapply (mm0_last c Set.univ (grid1.coords t) (kstep1_odd t h1) (ms1_0 t) (hs1_0 t) (ms1_1 t) (hs1_1 t) (ms1_2 t) (hs1_2 t)
      scM1 (Memref.isWhole_whole _) (iblk1 V c 0 t) (iblk1 V c 1 t) (acc1 V c (t.val - 1) hk) _)
    iframe H0 H1 HS
    isplitl [H2]; · iexists _; iexact H2
    iintro ⟨H0, H1, H2, HS⟩
    isplitl [HS HR Hg]
    · iexists _; iframe HS HR Hg; ipureintro; exact fun h2 => absurd h2 (by omega)
    iframe Ho H0 H1 H2

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [PhiA1_eq, show (dat1 V c).Φ 0 = Phi1 V c 0 from rfl]; unfold Phi1
  iintro ⟨⟨⟨%d, HS⟩, HR⟩, Hg⟩
  iexists d; iframe HS HR Hg; ipureintro; exact fun h => absurd h (by decide)

theorem hout1 (c : Dev nD) : (dat1 V c).Φ (Fin.last cfg1.N) ⊢ Pipeline.ΦA (Val := Elt F) (U := UR sig nD τ) spec1 c := by
  rw [PhiA1_eq, show (dat1 V c).Φ (Fin.last cfg1.N) = Phi1 V c cfg1.N from rfl]; unfold Phi1
  iintro ⟨%s, -, HS, HR, Hg⟩
  iframe HR Hg; iexists s; iexact HS

end

end Cert.KernelIdeal.HandR1

end
-- ==== Proof.KIRegion2.lean ====
import proofs.«404056_j317827580171_3_alg».proof.Proof.KIBodyMM0

noncomputable section

namespace Cert.KernelIdeal.HandR2

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator after point n: the K-step's product added to zeros at an even point, to the point before at an odd one. -/
def acc2 (c : Dev nD) : (n : ℕ) → n < cfg2.N → Vec F S16x1024 .f32
  | 0, hn => k0_pay2 (iblk2 V c 0 ⟨0, hn⟩) (iblk2 V c 1 ⟨0, hn⟩) k0_pay1
  | n + 1, hn => k0_pay2 (iblk2 V c 0 ⟨n + 1, hn⟩) (iblk2 V c 1 ⟨n + 1, hn⟩)
      (if (n + 1) % 2 = 0 then k0_pay1 else acc2 c n (Nat.lt_of_succ_lt hn))

theorem acc2_even (c : Dev nD) (t : Fin cfg2.N) (h : t.val % 2 = 0) :
    acc2 V c t.val t.isLt = k0_pay2 (iblk2 V c 0 t) (iblk2 V c 1 t) (k0_pay1 (F := F)) := by
  obtain ⟨_ | n, hn⟩ := t
  · rfl
  · exact congrArg (k0_pay2 _ _) (if_pos h)

theorem acc2_odd (c : Dev nD) (t : Fin cfg2.N) (h : t.val % 2 = 1) :
    acc2 V c t.val t.isLt
      = k0_pay2 (iblk2 V c 0 t) (iblk2 V c 1 t) (acc2 V c (t.val - 1) (Nat.lt_of_le_of_lt (Nat.sub_le _ _) t.isLt)) := by
  obtain ⟨_ | n, hn⟩ := t
  · exact absurd (show (0 : ℕ) % 2 = 1 from h) (by decide)
  · exact congrArg (k0_pay2 _ _) (if_neg fun e => by have : (n + 1) % 2 = 1 := h; omega)

abbrev scM2 : Memref sig .tc .vmem S16x1024 .f32 := Memref.whole cc2_scratch0

/-- Before point n the accumulator holds what point n - 1 left when n is odd; an even point resets it, so nothing is asked of it there. -/
def Phi2 (c : Dev nD) (n : ℕ) : sProp 𝕄 :=
  iprop(∃ s, ⌜n % 2 = 1 → ∃ hk, s = acc2 V c (n - 1) hk⌝ ∗ owns (c : Thread nD τ) scM2 fullShare s
    ∗ Pipeline.scopedRestBut (Ix := Unit) (Name := ℕ) (U := UR sig nD τ) (Lvl := ℕ) (Val := Elt F) spec2 c [cc2_scratch0]
    ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k0_pay3 (acc2 V c t.val t.isLt)
  Φ t := Phi2 V c t.val
  q _ := fullShare
  owed _ := 0

theorem A_eq2 (c : Dev nD) (w : Fin cfg2.W) : (dat2 V c).A w = V c (Pipeline.arrRef spec2 w) := rfl
theorem after2_2 (c : Dev nD) (t : Fin cfg2.N) : (dat2 V c).after 2 t = k0_pay3 (acc2 V c t.val t.isLt) := rfl

theorem PhiA2_eq (c : Dev nD) :
    (Pipeline.ΦA spec2 c : sProp 𝕄)
      = iprop(iprop(iprop((∃ d, owns (c : Thread nD τ) scM2 fullShare d))
          ∗ Pipeline.scopedRestBut (Ix := Unit) (Name := ℕ) (U := UR sig nD τ) (Lvl := ℕ) (Val := Elt F) spec2 c [cc2_scratch0])
        ∗ (∃ r, prngReg c r)) := by
  unfold Pipeline.ΦA; rw [scopedRest2_split]; simp only [scM2, owns_whole]; try rfl

theorem idleAt2_2_even : ∀ t : Fin cfg2.N, t.val % 2 = 0 → cfg2.idle 2 (grid2.coords t) = true := by decide +kernel
theorem noFlush2_2_even : ∀ t : Fin cfg2.N, t.val % 2 = 0 → (cfg2.win 2).flush t = false := by decide +kernel
theorem liveAt2_2_odd : ∀ t : Fin cfg2.N, t.val % 2 = 1 → cfg2.idle 2 (grid2.coords t) = false := by decide +kernel
theorem kstep2_even : ∀ t : Fin grid2.N, t.val % 2 = 0 → ((grid2.coords t) 1).val = 0 := by decide +kernel
theorem kstep2_odd : ∀ t : Fin grid2.N, t.val % 2 = 1 → ((grid2.coords t) 1).val = 1 := by decide +kernel

theorem before2_0 (c : Dev nD) (t : Fin cfg2.N) (d) : (dat2 V c).before 0 t d = iblk2 V c 0 t :=
  ((dat2 V c).before_fetched 0 t (fetch2_0 t) d).trans rfl
theorem before2_1 (c : Dev nD) (t : Fin cfg2.N) (d) : (dat2 V c).before 1 t d = iblk2 V c 1 t :=
  ((dat2 V c).before_fetched 1 t (fetch2_1 t) d).trans rfl

abbrev ms2_0 (t : Fin cfg2.N) : Memref sig .tc .vmem S16x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S8x16x128 .f32 := win2_2.stage (cfg2.slots t 2)
abbrev hs2_2 (t : Fin cfg2.N) : (ms2_2 t).IsWhole := hstage2_2 ((cfg2.slots t 2).cast nbuf2_2)

theorem sound_body2 (c : Dev nD) (t : Fin cfg2.N) :
    iprop(Phi2 V c t.val ∗ (dat2 V c).owesAt () t.castSucc
      ∗ (∃ d, owns (c : Thread nD τ) (ms2_0 t) fullShare ((dat2 V c).before 0 t d))
      ∗ (∃ d, owns (c : Thread nD τ) (ms2_1 t) fullShare ((dat2 V c).before 1 t d))
      ∗ (∃ d, owns (c : Thread nD τ) (ms2_2 t) fullShare ((dat2 V c).before 2 t d)))
    ⊢ wp frame (wpE (defs₀ (F := F)) Variants.none c none) Set.univ (bodyAt2 t) (fun _ =>
      iprop(Phi2 V c (t.val + 1) ∗ (dat2 V c).owesAt () t.castSucc
        ∗ owns (c : Thread nD τ) (ms2_0 t) fullShare (iblk2 V c 0 t) ∗ owns (c : Thread nD τ) (ms2_1 t) fullShare (iblk2 V c 1 t)
        ∗ (dat2 V c).leavesExact 2 t)) := by
  unfold bodyAt2
  simp only [before2_0, before2_1]
  unfold Phi2
  by_cases h : t.val % 2 = 0
  · rw [Dat.leavesExact_idle (dat2 V c) 2 t (idleAt2_2_even t h) (noFlush2_2_even t h)]
    iintro ⟨⟨%s, -, HS, HR, Hg⟩, Ho, ⟨%d0, H0⟩, ⟨%d1, H1⟩, ⟨%d2, H2⟩⟩
    iapply (mm0_first c Set.univ (grid2.coords t) (kstep2_even t h) (ms2_0 t) (hs2_0 t) (ms2_1 t) (hs2_1 t) (ms2_2 t) (hs2_2 t)
      scM2 (Memref.isWhole_whole _) (iblk2 V c 0 t) (iblk2 V c 1 t) ((dat2 V c).before 2 t d2) _)
    iframe H0 H1 H2
    isplitl [HS]; · iexists s; iexact HS
    iintro ⟨H0, H1, H2, HS⟩
    isplitl [HS HR Hg]
    · iexists _; iframe HS HR Hg; ipureintro; exact fun _ => ⟨t.isLt, (acc2_even V c t h).symm⟩
    iframe Ho H0 H1
    iexists d2; iexact H2
  · have h1 : t.val % 2 = 1 := by omega
    rw [show (dat2 V c).leavesExact 2 t = owns (c : Thread nD τ) (ms2_2 t) fullShare (k0_pay3 (acc2 V c t.val t.isLt)) from by
      unfold Dat.leavesExact; rw [liveAt2_2_odd t h1]; rfl, acc2_odd V c t h1]
    iintro ⟨⟨%s, %hs, HS, HR, Hg⟩, Ho, ⟨%d0, H0⟩, ⟨%d1, H1⟩, ⟨%d2, H2⟩⟩
    obtain ⟨hk, rfl⟩ := hs h1
    iapply (mm0_last c Set.univ (grid2.coords t) (kstep2_odd t h1) (ms2_0 t) (hs2_0 t) (ms2_1 t) (hs2_1 t) (ms2_2 t) (hs2_2 t)
      scM2 (Memref.isWhole_whole _) (iblk2 V c 0 t) (iblk2 V c 1 t) (acc2 V c (t.val - 1) hk) _)
    iframe H0 H1 HS
    isplitl [H2]; · iexists _; iexact H2
    iintro ⟨H0, H1, H2, HS⟩
    isplitl [HS HR Hg]
    · iexists _; iframe HS HR Hg; ipureintro; exact fun h2 => absurd h2 (by omega)
    iframe Ho H0 H1 H2

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [PhiA2_eq, show (dat2 V c).Φ 0 = Phi2 V c 0 from rfl]; unfold Phi2
  iintro ⟨⟨⟨%d, HS⟩, HR⟩, Hg⟩
  iexists d; iframe HS HR Hg; ipureintro; exact fun h => absurd h (by decide)

theorem hout2 (c : Dev nD) : (dat2 V c).Φ (Fin.last cfg2.N) ⊢ Pipeline.ΦA (Val := Elt F) (U := UR sig nD τ) spec2 c := by
  rw [PhiA2_eq, show (dat2 V c).Φ (Fin.last cfg2.N) = Phi2 V c cfg2.N from rfl]; unfold Phi2
  iintro ⟨%s, -, HS, HR, Hg⟩
  iframe HR Hg; iexists s; iexact HS

end

end Cert.KernelIdeal.HandR2

end
-- ==== Proof.KIAttnDefs.lean ====
import proofs.«404056_j317827580171_3_alg».proof.Proof.Gen.KernelIdeal.Launch
import proofs.«404056_j317827580171_3_alg».proof.Proof.Gen.KernelIdeal.Skeleton
import proofs.«404056_j317827580171_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the reset stores: maxima at the least value, denominators and numerators zero.
abbrev at0M : Vec F S8x16x1 .f32 := k3_pay14 (F := F)
abbrev at0L : Vec F S8x16x1 .f32 := k3_pay15 (F := F)
abbrev at0A : Vec F S8x16x128 .f32 := k3_pay16 (F := F)

-- One cached block folded into the running maxima, denominators and numerators.
def stM (q : Vec F S8x16x128 .f32) (kb : Vec F S8x1024x128 .f32) (m : Vec F S8x16x1 .f32) : Vec F S8x16x1 .f32 :=
  k3_pay2 (k3_pay19 q kb m)
def stL (q : Vec F S8x16x128 .f32) (kb : Vec F S8x1024x128 .f32) (m l : Vec F S8x16x1 .f32) : Vec F S8x16x1 .f32 :=
  k3_pay22 q kb m m l
def stA (q : Vec F S8x16x128 .f32) (kb vb : Vec F S8x1024x128 .f32) (m : Vec F S8x16x1 .f32) (a : Vec F S8x16x128 .f32) :
    Vec F S8x16x128 .f32 :=
  k3_pay1 (k3_pay17 vb) (k3_pay20 q kb m m) (k3_pay21 q kb m) a

-- The tile of new keys and values folded in the same way, and the output block: numerators over denominators.
def mgM (q kn : Vec F S8x16x128 .f32) (m : Vec F S8x16x1 .f32) : Vec F S8x16x1 .f32 :=
  k3_pay4 (k3_pay8 q kn m)
def mgL (q kn : Vec F S8x16x128 .f32) (m l : Vec F S8x16x1 .f32) : Vec F S8x16x1 .f32 :=
  k3_pay11 q kn m m l
def mgA (q kn vn : Vec F S8x16x128 .f32) (m : Vec F S8x16x1 .f32) (a : Vec F S8x16x128 .f32) : Vec F S8x16x128 .f32 :=
  k3_pay3 (k3_pay6 vn) (k3_pay12 q kn m m a) (k3_pay13 q kn m)
def outB (q kn vn : Vec F S8x16x128 .f32) (m l : Vec F S8x16x1 .f32) (a : Vec F S8x16x128 .f32) : Vec F S16x1024 .f32 :=
  k3_pay5 (mgA q kn vn m a) (mgL q kn m l)

end Cert.KernelIdeal.Hand

end
-- ==== Proof.KIBodyAttn.lean ====
import proofs.«404056_j317827580171_3_alg».proof.Proof.Gen.KernelIdeal.Launch
import proofs.«404056_j317827580171_3_alg».proof.Proof.Gen.KernelIdeal.Skeleton
import proofs.«404056_j317827580171_3_alg».proof.Proof.Gen.KernelIdeal.Points
import proofs.«404056_j317827580171_3_alg».proof.Proof.KIAttnDefs
import proofs.«404056_j317827580171_3_alg».proof.Proof.KIBodyMM0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The reset's condition holds exactly at the first cached block, the last block's branch condition exactly at the last.
theorem at_cond (i : grid3.Coords) :
    (Scalar.cmpi .ne (Scalar.extui (Scalar.cmpi .eq (BitVec.ofNat 32 (i 1).val) 0#32)) 0#32 = 1#1 ↔ (i 1).val = 0)
      ∧ (k3_cond2 i = 1#1 ↔ (i 1).val = 7) := by
  have h8 : (i 1).val < 8 := (i 1).isLt
  unfold k3_cond2
  generalize (i 1).val = n at h8
  have hn : n = 0 ∨ n = 1 ∨ n = 2 ∨ n = 3 ∨ n = 4 ∨ n = 5 ∨ n = 6 ∨ n = 7 := by omega
  rcases hn with rfl | rfl | rfl | rfl | rfl | rfl | rfl | rfl <;> decide

section Whole
variable {Val : EltTy → Type} [∀ e, Nonempty (Val e)] {sg : RefSig} {κ : Kind} {sp : Space} {S : Shape} {e : EltTy}
  {off : Fin S.rank → Nat}

-- A rectangle of the shape's own extent that fits in the shape sits at zero offsets.
theorem at_off (inb : ∀ a, off a + S.size a ≤ S.size a) : off = fun _ => 0 := funext fun a => by have := inb a; omega

variable (inb : ∀ a, off a + S.size a ≤ S.size a)

-- A buffer whose last store went through the whole-shape rectangle reads as that store's payload,
theorem at_read_writes_whole (v : View sg κ sp S e) (f : v.ty.Contents Val) (w : S.Idx → Val e) (L : List (View.Piece Val S e)) :
    v.read Val (v.writes Val f ((⟨Rect.unit off S.size inb, w⟩ : View.Piece Val S e) :: L)) = w := by
  rw [View.read_writes_eq_canon _ _ _ (cover_unit_zero (at_off inb) inb _ _),
    View.canon_cons_unit_zero (at_off inb) inb]

-- and so does a load through that rectangle after such stores.
theorem at_readCov_whole (v : View sg κ sp S e) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (cover_unit_zero (at_off inb) inb _ _),
    View.canon_cons_unit_zero (at_off inb) inb, View.ld_unit_zero (at_off inb) inb]

variable {m : Memref sg κ sp S e} (h : m.IsWhole) (X : S.Idx → Val e)

-- A whole memref held at the raw contents reading `X`: a load of the whole shape reads `X`,
theorem at_readAt_unread : View.readAt Val m.view (Rect.unit off S.size inb).toLoadRect (h.unread X) = X := by
  rw [View.readAt_eq_ld, h.read_unread, View.ld_unit_zero (at_off inb) inb]

-- and after a last store of the whole shape the raw contents are those reading its payload.
theorem at_writes_unread (w : S.Idx → Val e) (L : List (View.Piece Val S e)) :
    m.view.writes Val (h.unread X) ((⟨Rect.unit off S.size inb, w⟩ : View.Piece Val S e) :: L) = h.unread w :=
  h.eq_unread (at_read_writes_whole inb _ _ w L)

end Whole

-- Owning a whole memref at `X` is holding its elements at the raw contents reading `X`.
theorem at_owns_unread (c : Dev nD) {sp : Space} {sh : Shape} {e : EltTy} {m : Memref sig .tc sp sh e} (h : m.IsWhole)
    (q : PosShare TreeShare) (X : sh.Idx → Elt F e) :
    (owns (c : Thread nD τ) m q X : sProp 𝕄) = (m.view.loc (c : Thread nD τ) ↦[m.view.set]{q} h.unread X) := by
  unfold owns
  have h₁ : iprop(∃ f, ⌜m.view.read (Elt F) f = X⌝ ∗ (m.view.loc (c : Thread nD τ) ↦[m.view.set]{q} f))
      ⊢ (m.view.loc (c : Thread nD τ) ↦[m.view.set]{q} h.unread X : sProp 𝕄) := by
    iintro ⟨%f, %hf, H⟩; obtain rfl := h.eq_unread hf; iexact H
  have h₂ : (m.view.loc (c : Thread nD τ) ↦[m.view.set]{q} h.unread X : sProp 𝕄)
      ⊢ iprop(∃ f, ⌜m.view.read (Elt F) f = X⌝ ∗ (m.view.loc (c : Thread nD τ) ↦[m.view.set]{q} f)) := by
    iintro H; iexists _; isplitr; · ipureintro; exact h.read_unread X
    iexact H
  exact BI.equiv_iff.mp ⟨h₁, h₂⟩

variable (c : Dev nD) (E : Set ℕ) (i : grid3.Coords)
    (arg2 : Memref sig .tc .vmem S8x16x128 .f32) (harg2 : arg2.IsWhole) (arg3 : Memref sig .tc .vmem S8x16x128 .f32) (harg3 : arg3.IsWhole)
    (arg4 : Memref sig .tc .vmem S8x16x128 .f32) (harg4 : arg4.IsWhole) (arg5 : Memref sig .tc .vmem S8x1024x128 .f32) (harg5 : arg5.IsWhole)
    (arg6 : Memref sig .tc .vmem S8x1024x128 .f32) (harg6 : arg6.IsWhole) (arg7 : Memref sig .tc .vmem S16x1024 .f32) (harg7 : arg7.IsWhole)
    (arg8 : Memref sig .tc .vmem S8x16x1 .f32) (harg8 : arg8.IsWhole) (arg9 : Memref sig .tc .vmem S8x16x1 .f32) (harg9 : arg9.IsWhole)
    (arg10 : Memref sig .tc .vmem S8x16x128 .f32) (harg10 : arg10.IsWhole)
    (q kn vn : Vec F S8x16x128 .f32) (kb vb : Vec F S8x1024x128 .f32)

-- The kernel's nine buffers: the query tile, the new keys and values, the cached key and value blocks, the output block, the scratch.
def at3_held (o : Vec F S16x1024 .f32) (m l : Vec F S8x16x1 .f32) (a : Vec F S8x16x128 .f32) : sProp 𝕄 :=
  iprop(owns (c : Thread nD τ) arg2 fullShare q ∗ owns (c : Thread nD τ) arg3 fullShare kn ∗ owns (c : Thread nD τ) arg4 fullShare vn
    ∗ owns (c : Thread nD τ) arg5 fullShare kb ∗ owns (c : Thread nD τ) arg6 fullShare vb ∗ owns (c : Thread nD τ) arg7 fullShare o
    ∗ owns (c : Thread nD τ) arg8 fullShare m ∗ owns (c : Thread nD τ) arg9 fullShare l ∗ owns (c : Thread nD τ) arg10 fullShare a)

-- The first cached block of a head tile: the scratch is reset, then the block is folded in.
theorem at3_first (hi : (i 1).val = 0) (o : Vec F S16x1024 .f32) (m l : Vec F S8x16x1 .f32) (a : Vec F S8x16x128 .f32) (K : PUnit → sProp 𝕄) :
    iprop(at3_held c arg2 arg3 arg4 arg5 arg6 arg7 arg8 arg9 arg10 q kn vn kb vb o m l a
        ∗ (at3_held c arg2 arg3 arg4 arg5 arg6 arg7 arg8 arg9 arg10 q kn vn kb vb o (stM q kb (at0M (F := F))) (stL q kb (at0M (F := F)) (at0L (F := F))) (stA q kb vb (at0M (F := F)) (at0A (F := F))) -∗ K ⟨⟩))
      ⊢ wp frame (wpE (defs₀ (F := F)) Variants.none c none) E
        (cc3__attn_kernel i arg2 harg2 arg3 harg3 arg4 harg4 arg5 harg5 arg6 harg6 arg7 harg7 arg8 harg8 arg9 harg9 arg10 harg10) K := by
  have hc0 := (at_cond i).1.2 hi
  have hc1 := mt (at_cond i).2.1 (by omega)
  simp only [at3_held, cc3__attn_kernel_eq_skeleton, at_owns_unread c harg2, at_owns_unread c harg3, at_owns_unread c harg4,
    at_owns_unread c harg5, at_owns_unread c harg6, at_owns_unread c harg7, at_owns_unread c harg8, at_owns_unread c harg9, at_owns_unread c harg10]
  unfold cc3__attn_kernel_skel
  iintro ⟨⟨H2, H3, H4, H5, H6, H7, H8, H9, H10⟩, Hk⟩
  sl_exec (disch := first | exact hc0 | exact hc1)
  sl_step
  sl_unfold_words
  simp (config := { proj := false }) only [at_readAt_unread, at_readCov_whole, at_writes_unread, stM, stL, stA]
  iapply Hk
  iframe

-- A middle cached block: the block is folded in.
theorem at3_mid (hi0 : (i 1).val ≠ 0) (hi7 : (i 1).val ≠ 7) (o : Vec F S16x1024 .f32) (m l : Vec F S8x16x1 .f32) (a : Vec F S8x16x128 .f32) (K : PUnit → sProp 𝕄) :
    iprop(at3_held c arg2 arg3 arg4 arg5 arg6 arg7 arg8 arg9 arg10 q kn vn kb vb o m l a
        ∗ (at3_held c arg2 arg3 arg4 arg5 arg6 arg7 arg8 arg9 arg10 q kn vn kb vb o (stM q kb m) (stL q kb m l) (stA q kb vb m a) -∗ K ⟨⟩))
      ⊢ wp frame (wpE (defs₀ (F := F)) Variants.none c none) E
        (cc3__attn_kernel i arg2 harg2 arg3 harg3 arg4 harg4 arg5 harg5 arg6 harg6 arg7 harg7 arg8 harg8 arg9 harg9 arg10 harg10) K := by
  have hc0 := mt (at_cond i).1.1 hi0
  have hc1 := mt (at_cond i).2.1 hi7
  simp only [at3_held, cc3__attn_kernel_eq_skeleton, at_owns_unread c harg2, at_owns_unread c harg3, at_owns_unread c harg4,
    at_owns_unread c harg5, at_owns_unread c harg6, at_owns_unread c harg7, at_owns_unread c harg8, at_owns_unread c harg9, at_owns_unread c harg10]
  unfold cc3__attn_kernel_skel
  iintro ⟨⟨H2, H3, H4, H5, H6, H7, H8, H9, H10⟩, Hk⟩
  sl_exec (disch := first | exact hc0 | exact hc1)
  sl_step
  sl_unfold_words
  simp (config := { proj := false }) only [at_readAt_unread, at_readCov_whole, at_writes_unread, stM, stL, stA]
  iapply Hk
  iframe

-- The last cached block: the block is folded in, then the new tile, and the output block is written.
theorem at3_last (hi : (i 1).val = 7) (o : Vec F S16x1024 .f32) (m l : Vec F S8x16x1 .f32) (a : Vec F S8x16x128 .f32) (K : PUnit → sProp 𝕄) :
    iprop(at3_held c arg2 arg3 arg4 arg5 arg6 arg7 arg8 arg9 arg10 q kn vn kb vb o m l a
        ∗ (at3_held c arg2 arg3 arg4 arg5 arg6 arg7 arg8 arg9 arg10 q kn vn kb vb (outB q kn vn (stM q kb m) (stL q kb m l) (stA q kb vb m a)) (mgM q kn (stM q kb m)) (mgL q kn (stM q kb m) (stL q kb m l)) (mgA q kn vn (stM q kb m) (stA q kb vb m a)) -∗ K ⟨⟩))
      ⊢ wp frame (wpE (defs₀ (F := F)) Variants.none c none) E
        (cc3__attn_kernel i arg2 harg2 arg3 harg3 arg4 harg4 arg5 harg5 arg6 harg6 arg7 harg7 arg8 harg8 arg9 harg9 arg10 harg10) K := by
  have hc0 := mt (at_cond i).1.1 (by omega)
  have hc1 := (at_cond i).2.2 hi
  simp only [at3_held, cc3__attn_kernel_eq_skeleton, at_owns_unread c harg2, at_owns_unread c harg3, at_owns_unread c harg4,
    at_owns_unread c harg5, at_owns_unread c harg6, at_owns_unread c harg7, at_owns_unread c harg8, at_owns_unread c harg9, at_owns_unread c harg10]
  unfold cc3__attn_kernel_skel
  iintro ⟨⟨H2, H3, H4, H5, H6, H7, H8, H9, H10⟩, Hk⟩
  sl_exec (disch := first | exact hc0 | exact hc1)
  sl_step
  sl_unfold_words
  simp (config := { proj := false }) only [at_readAt_unread, at_readCov_whole, at_writes_unread, outB, mgM, mgL, mgA, stM, stL, stA]
  iapply Hk
  iframe

end Cert.KernelIdeal.Hand

end
-- ==== Proof.KIRegion3.lean ====
import proofs.«404056_j317827580171_3_alg».proof.Proof.Gen.KernelIdeal.Launch
import proofs.«404056_j317827580171_3_alg».proof.Proof.Gen.KernelIdeal.Skeleton
import proofs.«404056_j317827580171_3_alg».proof.Proof.Gen.KernelIdeal.Points
import proofs.«404056_j317827580171_3_alg».proof.Proof.KIAttnDefs
import proofs.«404056_j317827580171_3_alg».proof.Proof.KIBodyAttn
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
section
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev Sc3 (F : FTy → Type) [FloatOps F] : Type := Vec F S8x16x1 .f32 × Vec F S8x16x1 .f32 × Vec F S8x16x128 .f32

abbrev sc3Init : Sc3 F := (at0M (F := F), at0L (F := F), at0A (F := F))

def stepAt (c : Dev nD) (t : Fin cfg3.N) (s : Sc3 F) : Sc3 F :=
  (stM (iblk3 V c 0 t) (iblk3 V c 3 t) s.1,
   stL (iblk3 V c 0 t) (iblk3 V c 3 t) s.1 s.2.1,
   stA (iblk3 V c 0 t) (iblk3 V c 3 t) (iblk3 V c 4 t) s.1 s.2.2)

def mergeAt (c : Dev nD) (t : Fin cfg3.N) (s : Sc3 F) : Sc3 F :=
  (mgM (iblk3 V c 0 t) (iblk3 V c 1 t) s.1,
   mgL (iblk3 V c 0 t) (iblk3 V c 1 t) s.1 s.2.1,
   mgA (iblk3 V c 0 t) (iblk3 V c 1 t) (iblk3 V c 2 t) s.1 s.2.2)

def st3 (c : Dev nD) : (n : ℕ) → n < cfg3.N → Sc3 F
  | 0, hn => stepAt V c ⟨0, hn⟩ sc3Init
  | n + 1, hn =>
    if (n + 1) % 8 = 0 then stepAt V c ⟨n + 1, hn⟩ sc3Init
    else if (n + 1) % 8 = 7 then mergeAt V c ⟨n + 1, hn⟩ (stepAt V c ⟨n + 1, hn⟩ (st3 c n (Nat.lt_of_succ_lt hn)))
    else stepAt V c ⟨n + 1, hn⟩ (st3 c n (Nat.lt_of_succ_lt hn))

def st3Before (c : Dev nD) (t : Fin cfg3.N) : Sc3 F :=
  if h : t.val % 8 = 0 then sc3Init else st3 V c (t.val - 1) (Nat.lt_of_le_of_lt (Nat.sub_le _ _) t.isLt)

theorem st3_first (c : Dev nD) (t : Fin cfg3.N) (h : t.val % 8 = 0) :
    st3 V c t.val t.isLt = stepAt V c t sc3Init := by
  obtain ⟨n, hn⟩ := t
  cases n with
  | zero => exact rfl
  | succ n => exact (if_pos h).trans rfl
theorem st3_mid (c : Dev nD) (t : Fin cfg3.N) (h0 : t.val % 8 ≠ 0) (h7 : t.val % 8 ≠ 7) :
    st3 V c t.val t.isLt = stepAt V c t (st3 V c (t.val - 1) (Nat.lt_of_le_of_lt (Nat.sub_le _ _) t.isLt)) := by
  obtain ⟨n, hn⟩ := t
  cases n with
  | zero => exact absurd (Nat.zero_mod _) h0
  | succ n => exact (if_neg h0).trans ((if_neg h7).trans rfl)
theorem st3_last (c : Dev nD) (t : Fin cfg3.N) (h : t.val % 8 = 7) :
    st3 V c t.val t.isLt
      = mergeAt V c t (stepAt V c t (st3 V c (t.val - 1) (Nat.lt_of_le_of_lt (Nat.sub_le _ _) t.isLt))) := by
  obtain ⟨n, hn⟩ := t
  cases n with
  | zero => exact absurd (show (0 : ℕ) % 8 = 7 from h) (by decide)
  | succ n =>
    have h0 : ¬ (n + 1) % 8 = 0 := fun e => by rw [show (⟨n + 1, hn⟩ : Fin cfg3.N).val = n + 1 from rfl] at h; omega
    exact (if_neg h0).trans ((if_pos h).trans rfl)

def out3 (c : Dev nD) (t : Fin cfg3.N) : Vec F S16x1024 .f32 :=
  outB (iblk3 V c 0 t) (iblk3 V c 1 t) (iblk3 V c 2 t)
    (stepAt V c t (st3Before V c t)).1 (stepAt V c t (st3Before V c t)).2.1 (stepAt V c t (st3Before V c t)).2.2

abbrev scM3_0 : Memref sig .tc .vmem S8x16x1 .f32 := Memref.whole cc3_scratch0
abbrev scM3_1 : Memref sig .tc .vmem S8x16x1 .f32 := Memref.whole cc3_scratch1
abbrev scM3_2 : Memref sig .tc .vmem S8x16x128 .f32 := Memref.whole cc3_scratch2

-- The scratch at a state, the other scoped buffers unopened, the generator register at some state.
def scr3 (c : Dev nD) (s : Sc3 F) : sProp 𝕄 :=
  iprop(owns (c : Thread nD τ) scM3_0 fullShare s.1 ∗ owns (c : Thread nD τ) scM3_1 fullShare s.2.1 ∗ owns (c : Thread nD τ) scM3_2 fullShare s.2.2
    ∗ Pipeline.scopedRestBut (Ix := Unit) (Name := ℕ) (U := UR sig nD τ) (Lvl := ℕ) (Val := Elt F) spec3 c [cc3_scratch0, cc3_scratch1, cc3_scratch2]
    ∗ (∃ r, prngReg c r))

-- The call's invariant before position `n`: what the launch hands it, then the scratch at what the point before left.
def Phi3 (c : Dev nD) : (n : ℕ) → n ≤ cfg3.N → sProp 𝕄
  | 0, _ => Pipeline.ΦA spec3 c
  | n + 1, hn => scr3 c (st3 V c n hn)

theorem Phi3_pos (c : Dev nD) (n : ℕ) (h : n ≤ cfg3.N) (hz : n ≠ 0) : Phi3 V c n h = scr3 c (st3 V c (n - 1) (by omega)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3 V c t
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem after3_5 (c : Dev nD) (t : Fin cfg3.N) : (dat3 V c).after 5 t = out3 V c t := by dsimp only [dat3]

theorem scopedRest3_split (c : Dev nD) :
    (Pipeline.scopedRest (Ix := Unit) (Name := ℕ) (U := UR sig nD τ) (Lvl := ℕ) (Val := Elt F) spec3 c : sProp 𝕄)
      = iprop(iprop((∃ f : Buf (Elt F) ((c : Thread nD τ).loc cc3_scratch0), ((c : Thread nD τ).loc cc3_scratch0) ↦{fullShare} f)
            ∗ (∃ f : Buf (Elt F) ((c : Thread nD τ).loc cc3_scratch1), ((c : Thread nD τ).loc cc3_scratch1) ↦{fullShare} f)
            ∗ (∃ f : Buf (Elt F) ((c : Thread nD τ).loc cc3_scratch2), ((c : Thread nD τ).loc cc3_scratch2) ↦{fullShare} f))
          ∗ Pipeline.scopedRestBut (Ix := Unit) (Name := ℕ) (U := UR sig nD τ) (Lvl := ℕ) (Val := Elt F) spec3 c [cc3_scratch0, cc3_scratch1, cc3_scratch2]) :=
  Pipeline.scopedRest_split_of_list spec3 c [cc3_scratch0, cc3_scratch1, cc3_scratch2] (by decide) (by decide)

-- The launch's invariant is the scratch at some state with the rest.
theorem PhiA3_iff (c : Dev nD) : (Pipeline.ΦA (Val := Elt F) (U := UR sig nD τ) spec3 c : sProp 𝕄) ⊣⊢ iprop(∃ s, scr3 c s) := by
  unfold Pipeline.ΦA scr3
  rw [scopedRest3_split]
  simp only [scM3_0, scM3_1, scM3_2, owns_whole]
  constructor
  · iintro ⟨⟨⟨⟨%d0, H0⟩, ⟨%d1, H1⟩, ⟨%d2, H2⟩⟩, Hrest⟩, Hg⟩
    iexists (d0, d1, d2)
    iframe
  · iintro ⟨%s, H0, H1, H2, Hrest, Hg⟩
    iframe
    isplitl [H0]; · iexists _; iexact H0
    isplitl [H1]; · iexists _; iexact H1
    iexists _; iexact H2

-- Before any point the invariant gives the scratch at some state.
theorem Phi3_forget (c : Dev nD) (n : ℕ) (h : n ≤ cfg3.N) : Phi3 V c n h ⊢ iprop(∃ s, scr3 c s) := by
  cases n with
  | zero => exact (PhiA3_iff c).1
  | succ n => exact exists_intro (Φ := fun s => scr3 c s) _

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (c : Dev nD) (t : Fin cfg3.N) (d) : (dat3 V c).before 2 t d = iblk3 V c 2 t :=
  (dat3 V c).before_in_eq_fetched 2 rfl (fun _ => rfl) (fun _ _ _ => rfl) (fun _ => rfl) t d
theorem before3_3 (c : Dev nD) (t : Fin cfg3.N) (d) : (dat3 V c).before 3 t d = iblk3 V c 3 t :=
  (dat3 V c).before_in_eq_fetched 3 rfl (fun _ => rfl) (fun _ _ _ => rfl) (fun _ => rfl) t d
theorem before3_4 (c : Dev nD) (t : Fin cfg3.N) (d) : (dat3 V c).before 4 t d = iblk3 V c 4 t :=
  (dat3 V c).before_in_eq_fetched 4 rfl (fun _ => rfl) (fun _ _ _ => rfl) (fun _ => rfl) t d

theorem sched3 (t : Fin cfg3.N) : ((grid3.coords t) 1).val = t.val % 8 ∧ cfg3.idle 5 (grid3.coords t) = decide (t.val % 8 ≠ 7) :=
  (by decide +kernel : ∀ t : Fin grid3.N, ((grid3.coords t) 1).val = t.val % 8 ∧ idle3 5 (grid3.coords t) = decide (t.val % 8 ≠ 7)) t
theorem noFlush3_5 (t : Fin cfg3.N) (h : t.val % 8 ≠ 7) : (cfg3.win 5).flush t = false := by
  cases hf : (cfg3.win 5).flush t with
  | false => rfl
  | true => exact absurd ((flush3_5 t).mp hf) h

-- The body at any point: the first, a middle or the last cached block of a head tile.
theorem sound_body3 (c : Dev nD) (t : Fin cfg3.N) :
    iprop(Phi3 V c t.val (Nat.le_of_lt t.isLt) ∗ (dat3 V c).owesAt () t.castSucc
      ∗ (∃ d, owns (c : Thread nD τ) (st3_0 t) fullShare ((dat3 V c).before 0 t d))
      ∗ (∃ d, owns (c : Thread nD τ) (st3_1 t) fullShare ((dat3 V c).before 1 t d))
      ∗ (∃ d, owns (c : Thread nD τ) (st3_2 t) fullShare ((dat3 V c).before 2 t d))
      ∗ (∃ d, owns (c : Thread nD τ) (st3_3 t) fullShare ((dat3 V c).before 3 t d))
      ∗ (∃ d, owns (c : Thread nD τ) (st3_4 t) fullShare ((dat3 V c).before 4 t d))
      ∗ (∃ d, owns (c : Thread nD τ) (st3_5 t) fullShare ((dat3 V c).before 5 t d)))
    ⊢ wp frame (wpE (defs₀ (F := F)) Variants.none c none) Set.univ (bodyAt3 t) (fun _ =>
      iprop(scr3 c (st3 V c t.val t.isLt) ∗ (dat3 V c).owesAt () t.castSucc
        ∗ owns (c : Thread nD τ) (st3_0 t) fullShare (iblk3 V c 0 t) ∗ owns (c : Thread nD τ) (st3_1 t) fullShare (iblk3 V c 1 t)
        ∗ owns (c : Thread nD τ) (st3_2 t) fullShare (iblk3 V c 2 t) ∗ owns (c : Thread nD τ) (st3_3 t) fullShare (iblk3 V c 3 t)
        ∗ owns (c : Thread nD τ) (st3_4 t) fullShare (iblk3 V c 4 t) ∗ (dat3 V c).leavesExact 5 t)) := by
  unfold bodyAt3
  simp only [before3_0, before3_1, before3_2, before3_3, before3_4]
  have hN : t.val < 32 := lt_of_lt_of_eq t.isLt (show cfg3.N = 32 from N_3)
  by_cases h0 : t.val % 8 = 0
  · have h7 : t.val % 8 ≠ 7 := by omega
    rw [Dat.leavesExact_idle (dat3 V c) 5 t ((sched3 t).2.trans (decide_eq_true h7)) (noFlush3_5 t h7), st3_first V c t h0]
    iintro ⟨HΦ, Ho, ⟨%d0, H0⟩, ⟨%d1, H1⟩, ⟨%d2, H2⟩, ⟨%d3, H3⟩, ⟨%d4, H4⟩, ⟨%d5, H5⟩⟩
    icases (Phi3_forget V c t.val (Nat.le_of_lt t.isLt)) $$ HΦ with ⟨%s, HS⟩
    simp only [scr3, stepAt]
    icases HS with ⟨HS0, HS1, HS2, Hrest, Hg⟩
    iapply (at3_first (hi := (sched3 t).1.trans h0))
    simp only [at3_held]
    iframe
    iintro ⟨H0, H1, H2, H3, H4, H5, HS0, HS1, HS2⟩
    iframe
    iexists _; iexact H5
  · have hz : t.val ≠ 0 := fun e => h0 (by rw [e])
    rw [Phi3_pos V c _ _ hz]
    by_cases h7 : t.val % 8 = 7
    · rw [show (dat3 V c).leavesExact 5 t = owns (c : Thread nD τ) (st3_5 t) fullShare ((dat3 V c).after 5 t) from by
        unfold Dat.leavesExact; rw [(sched3 t).2.trans (decide_eq_false (not_not.2 h7))], after3_5, st3_last V c t h7,
        show out3 V c t = _ from by unfold out3 st3Before; rw [dif_neg h0]]
      simp only [scr3, mergeAt, stepAt]
      iintro ⟨⟨HS0, HS1, HS2, Hrest, Hg⟩, Ho, ⟨%d0, H0⟩, ⟨%d1, H1⟩, ⟨%d2, H2⟩, ⟨%d3, H3⟩, ⟨%d4, H4⟩, ⟨%d5, H5⟩⟩
      iapply (at3_last (hi := (sched3 t).1.trans h7))
      simp only [at3_held]
      iframe
      iintro ⟨H0, H1, H2, H3, H4, H5, HS0, HS1, HS2⟩
      iframe
    · rw [Dat.leavesExact_idle (dat3 V c) 5 t ((sched3 t).2.trans (decide_eq_true h7)) (noFlush3_5 t h7), st3_mid V c t h0 h7]
      simp only [scr3, stepAt]
      iintro ⟨⟨HS0, HS1, HS2, Hrest, Hg⟩, Ho, ⟨%d0, H0⟩, ⟨%d1, H1⟩, ⟨%d2, H2⟩, ⟨%d3, H3⟩, ⟨%d4, H4⟩, ⟨%d5, H5⟩⟩
      iapply (at3_mid (hi0 := (sched3 t).1 ▸ h0) (hi7 := (sched3 t).1 ▸ h7))
      simp only [at3_held]
      iframe
      iintro ⟨H0, H1, H2, H3, H4, H5, HS0, HS1, HS2⟩
      iframe
      iexists _; iexact H5

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := Entails.of_eq rfl

theorem hout3 (c : Dev nD) : (dat3 V c).Φ (Fin.last cfg3.N) ⊢ Pipeline.ΦA (Val := Elt F) (U := UR sig nD τ) spec3 c :=
  (Phi3_forget V c (Fin.last cfg3.N).val _).trans (PhiA3_iff c).2

end

end Cert.KernelIdeal.Hand

end
-- ==== Proof.KIRun.lean ====
import proofs.«404056_j317827580171_3_alg».proof.Proof.Gen.KernelIdeal.Launch
import proofs.«404056_j317827580171_3_alg».proof.Proof.KIRegion0
import proofs.«404056_j317827580171_3_alg».proof.Proof.KIRegion1
import proofs.«404056_j317827580171_3_alg».proof.Proof.KIRegion2
import proofs.«404056_j317827580171_3_alg».proof.Proof.KIRegion3
import Idealize.ShloMosaic.Lib.Pipeline.RegionsLoop
import Idealize.ShloMosaic.Lib.Pipeline.FrameSuffix

noncomputable section

namespace Cert.KernelIdeal.Hand

open Cert.KernelIdeal Cert.KernelIdeal.Gen Cert.KernelIdeal.HandR1 Cert.KernelIdeal.HandR2
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg BodyObligation)

variable {F : FTy → Type} [FloatOps F]

local notation "𝕄" => MT nD τ sig Unit (Elt F) ℕ (UR sig nD τ) ℕ

abbrev adm : (p : Fin 4) → (pcfgs (F := F) p).Adm := fun p => (cfgs p).toPCfg_adm
abbrev cf (F : FTy → Type) [FloatOps F] (p : Fin 4) : Cfg sig Λ₀ := Pipeline.pin (pcfgs (F := F)) adm p
abbrev 𝒱₀ : Variants := Variants.none
abbrev L : GSem nD τ sig → Finset Unit := fun _ => ∅
abbrev lv : GSem nD τ sig → Unit → ℕ := fun _ _ => 0
abbrev Tn (c : Dev nD) (W : Valuation τ sig (Elt F)) : sProp 𝕄 :=
  iprop(StableHlo.held (c : Thread nD τ) (Pipeline.ucRefs τ sig) W ∗ ∃ r, prngReg c r)
abbrev T (c : Dev nD) (W : Valuation τ sig (Elt F)) : sProp 𝕄 :=
  iprop(Tn c W ∗ ∃ O, owes (c : Thread nD τ) (0 : CellTallies nD τ sig Unit) O)

set_option backward.isDefEq.respectTransparency.types false in
def reg (pd : (p : Fin 4) → (c : Dev nD) → Dat τ (Elt F) Unit ℕ (UR sig nD τ) ℕ (cf F p) c)
    (p : Fin 4) (la : Pipeline.LaunchFacts (nD := nD) (τ := τ) cfgs p) (V : Dev nD → Valuation τ sig (Elt F))
    (hbody : ∀ c, BodyObligation (pd p c) (defs₀ (F := F)) 𝒱₀ () Set.univ)
    (hin : ∀ c, Pipeline.ΦA (cf F p).spec c ⊢ (pd p c).Φ 0)
    (hout : ∀ c, (pd p c).Φ (Fin.last (cf F p).N) ⊢ Pipeline.ΦA (cf F p).spec c)
    (hA : ∀ c w, (pd p c).A w = V c (Pipeline.arrRef (cf F p).spec w) := by exact fun _ _ => rfl)
    (hq : ∀ c w, (pd p c).q w = fullShare := by exact fun _ _ => rfl)
    (howed : ∀ c t, (pd p c).owed t = 0 := by exact fun _ _ => rfl)
    (hrec : ∀ c, (pd p c).recorded 0 = Set.univ := by exact fun _ => rfl) :
    Pipeline.RegionSeg (pcfgs (F := F)) adm pd () defs₀ 𝒱₀ L lv p where
  win := la.win.to₀
  block_pos := la.block_pos
  stage_whole := la.stage_whole
  K := PEmpty
  osem k := k.elim
  ho := Pipeline.OwnSemFacts.none _
  hbody c := (hbody c).loose
  hwaits := Pipeline.hwaits_of_owed_zero _ _ _ _ L lv p howed
  pre c := T c (V c)
  post c := T c (Pipeline.withArrays (cf F p).spec c (V c) fun w => (pd p c).arrAt w (cf F p).N)
  X c := iprop(∃ r, prngReg c r)
  Y c := iprop(∃ r, prngReg c r)
  Z c := Pipeline.unscopedRest (cf F p).spec c fun b => V c b
  hentry c := by
    unfold Pipeline.Dat.owesAt Pipeline.owesWithin
    rw [Pipeline.ownSems0_none, howed c]
    have hsplit := Pipeline.arrays_of_unscopedBufs (p := p) (pcfgs (F := F)) adm pd la.win la.arr_whole c
      ((pd p c).share_full (hq c)) (fun b => V c b) (hA c)
    rw [Pipeline.unscopedBufs_held] at hsplit
    iintro ⟨⟨⟨Hub, Hp⟩, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    icases HO with ⟨%W, HO⟩; iexists W; isplitr; · ipureintro; exact fun _ _ => Or.inl (by rw [hrec c]; trivial)
    iexact HO
  hin c := by
    iintro ⟨Hp, -, Hr⟩
    iapply hin c
    unfold Pipeline.ΦA
    iframe
  hout c := by
    rw [Pipeline.ownSems0_none]
    iintro HΦ
    ihave H := (hout c) $$ HΦ
    unfold Pipeline.ΦA
    icases H with ⟨Hr, Hp⟩
    iframe; iempintro
  hexit c := by
    unfold Pipeline.Dat.owesAt Pipeline.owesWithin
    rw [howed c]
    have hjoin := Pipeline.unscopedBufs_of_arrays (p := p) (pcfgs (F := F)) adm
      la.win la.arr_whole c pd ((pd p c).share_full (hq c)) (fun b => V c b)
      (fun b => Pipeline.withArrays (cf F p).spec c (V c) (fun w => (pd p c).arrAt w (cf F p).N) b) ((pd p c).arrAt · (cf F p).N)
      (fun w => (Pipeline.withArrays_arr (cf F p).spec la.win.arr_inj c (V c) ((pd p c).arrAt · (cf F p).N) w).symm)
      fun b hb => Pipeline.withArrays_of_ne _ c _ _ b fun w e => hb (Finset.mem_image.mpr ⟨w, Finset.mem_univ _, e⟩)
    rw [Pipeline.unscopedBufs_held] at hjoin
    iintro ⟨Ha, HO, HY, Hrest⟩
    imodintro
    isplitl [Ha Hrest HY]
    · isplitl [Ha Hrest]
      · iapply hjoin; iframe
      iexact HY
    icases HO with ⟨%W, -, HO⟩; iexists W; iexact HO

variable (m : (ℓ : Loc nD τ sig) → Buf (Elt F) ℓ) (ρ : Dev nD → PrngReg)

abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N :=
  Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) :=
  Pipeline.withArrays_of_ne spec0 c _ _ b hb
abbrev V1 : (c : Dev nD) → (b : Ref sig .tc) → Buf (Elt F) ((c : Thread nD τ).loc b) := fun c b => W1 m ρ c b
/-- An input array of a call is left as the call found it. -/
theorem W1_in (c : Dev nD) (w : Fin cfg0.W) (hw : (cfg0.win w).isOut = false := by rfl) :
    W1 m ρ c (Proc.devRef .tc (Pipeline.arrRef spec0 w)) = W0 m ρ c (Proc.devRef .tc (Pipeline.arrRef spec0 w)) :=
  (W1_arr m ρ c w).trans (((dat0 (V0 m ρ) c).arrAt_in w hw _).trans (A_eq0 (V0 m ρ) c w))

def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N :=
  Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) :=
  Pipeline.withArrays_of_ne spec1 c _ _ b hb
abbrev V2 : (c : Dev nD) → (b : Ref sig .tc) → Buf (Elt F) ((c : Thread nD τ).loc b) := fun c b => W2 m ρ c b
theorem W2_in (c : Dev nD) (w : Fin cfg1.W) (hw : (cfg1.win w).isOut = false := by rfl) :
    W2 m ρ c (Proc.devRef .tc (Pipeline.arrRef spec1 w)) = W1 m ρ c (Proc.devRef .tc (Pipeline.arrRef spec1 w)) :=
  (W2_arr m ρ c w).trans (((dat1 (V1 m ρ) c).arrAt_in w hw _).trans (A_eq1 (V1 m ρ) c w))

def W3 (c : Dev nD) : Valuation τ sig (Elt F) :=
  Pipeline.withArrays spec2 c (W2 m ρ c) fun w => (dat2 (V2 m ρ) c).arrAt w cfg2.N
theorem W3_arr (c : Dev nD) (w : Fin cfg2.W) :
    W3 m ρ c (Proc.devRef .tc (Pipeline.arrRef spec2 w)) = (dat2 (V2 m ρ) c).arrAt w cfg2.N :=
  Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) :=
  Pipeline.withArrays_of_ne spec2 c _ _ b hb
abbrev V3 : (c : Dev nD) → (b : Ref sig .tc) → Buf (Elt F) ((c : Thread nD τ).loc b) := fun c b => W3 m ρ c b
theorem W3_in (c : Dev nD) (w : Fin cfg2.W) (hw : (cfg2.win w).isOut = false := by rfl) :
    W3 m ρ c (Proc.devRef .tc (Pipeline.arrRef spec2 w)) = W2 m ρ c (Proc.devRef .tc (Pipeline.arrRef spec2 w)) :=
  (W3_arr m ρ c w).trans (((dat2 (V2 m ρ) c).arrAt_in w hw _).trans (A_eq2 (V2 m ρ) c w))

def W4 (c : Dev nD) : Valuation τ sig (Elt F) :=
  Pipeline.withArrays spec3 c (W3 m ρ c) fun w => (dat3 (V3 m ρ) c).arrAt w cfg3.N
theorem W4_arr (c : Dev nD) (w : Fin cfg3.W) :
    W4 m ρ c (Proc.devRef .tc (Pipeline.arrRef spec3 w)) = (dat3 (V3 m ρ) c).arrAt w cfg3.N :=
  Pipeline.withArrays_arr spec3 launch3.win.arr_inj c _ _ w
theorem W4_of_ne (c : Dev nD) (b : Ref sig .tc) (hb : ∀ w, Pipeline.arrRef spec3 w ≠ b) :
    W4 m ρ c (Proc.devRef .tc b) = W3 m ρ c (Proc.devRef .tc b) :=
  Pipeline.withArrays_of_ne spec3 c _ _ b hb
theorem W4_in (c : Dev nD) (w : Fin cfg3.W) (hw : (cfg3.win w).isOut = false := by rfl) :
    W4 m ρ c (Proc.devRef .tc (Pipeline.arrRef spec3 w)) = W3 m ρ c (Proc.devRef .tc (Pipeline.arrRef spec3 w)) :=
  (W4_arr m ρ c w).trans (((dat3 (V3 m ρ) c).arrAt_in w hw _).trans (A_eq3 (V3 m ρ) c w))

def pdats : (p : Fin 4) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
  | ⟨3, _⟩ => fun c => dat3 (V3 m ρ) c

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
abbrev segs : List (Pipeline.Seg (pcfgs (F := F)) adm (pdats m ρ) () defs₀ 𝒱₀ L lv) :=
  [ .region (reg (pdats m ρ) 0 launch0 (W0 m ρ) (body_obligation0 (V0 m ρ)) (hin0 (V0 m ρ)) (hout0 (V0 m ρ))),
    .region (reg (pdats m ρ) 1 launch1 (W1 m ρ) (body_obligation1 (V1 m ρ)) (hin1 (V1 m ρ)) (hout1 (V1 m ρ))),
    .region (reg (pdats m ρ) 2 launch2 (W2 m ρ) (body_obligation2 (V2 m ρ)) (hin2 (V2 m ρ)) (hout2 (V2 m ρ))),
    .region (reg (pdats m ρ) 3 launch3 (W3 m ρ) (body_obligation3 (V3 m ρ)) (hin3 (V3 m ρ)) (hout3 (V3 m ρ))) ]

set_option backward.isDefEq.respectTransparency.types false in
/-- @main terminates without fault; the result is the last call's final output array, and no call writes an argument. -/
theorem run_main : θ_run defs (onTc (τ := τ) (main (F := F))) ⟨m, fun _ => 0, ρ⟩ (fun r => ∀ c : Dev nD,
      r.2.mem ((c.tc : Thread nD τ).loc main_v3) = (dat3 (V3 m ρ) c).arrAt 5 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [show main (F := F) c = Pipeline.Seg.run (segs m ρ) from main_segs adm _ () 𝒱₀ L lv _ _ _ _ c])
    (by simp only [segs, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ _) from .rfl); iexact Hu
      iapply (show (BI.emp : sProp 𝕄) ⊢ bigSep Finset.univ (fun _ : Dev nD => (BI.emp : sProp 𝕄)) from by rw [BI.bigSep_emp_const])
      iempintro)
    (T₀ := fun c => T c (W0 m ρ c)) (Tₙ := fun c => Tn c (W4 m ρ c))
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh Hp]
      · isplitl [Hh]; · iexact Hh
        iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      iframe)
    (hQ := fun s h c => have e b hb := h c _ (mem_uc b hb)
      ⟨(e main_v3 (by decide)).trans (W4_arr m ρ c 5),
       (e main_arg0 (by decide)).trans <| (W4_of_ne m ρ c main_arg0 (by decide)).trans <| (W3_in m ρ c 0).trans <| (W2_in m ρ c 0).trans <| W1_in m ρ c 0,
       (e main_arg1 (by decide)).trans <| (W4_of_ne m ρ c main_arg1 (by decide)).trans <| (W3_of_ne m ρ c main_arg1 (by decide)).trans <| (W2_of_ne m ρ c main_arg1 (by decide)).trans <| W1_in m ρ c 1,
       (e main_arg2 (by decide)).trans <| (W4_of_ne m ρ c main_arg2 (by decide)).trans <| (W3_of_ne m ρ c main_arg2 (by decide)).trans <| (W2_in m ρ c 1).trans <| W1_of_ne m ρ c main_arg2 (by decide),
       (e main_arg3 (by decide)).trans <| (W4_of_ne m ρ c main_arg3 (by decide)).trans <| (W3_in m ρ c 1).trans <| (W2_of_ne m ρ c main_arg3 (by decide)).trans <| W1_of_ne m ρ c main_arg3 (by decide),
       (e main_arg4 (by decide)).trans <| (W4_in m ρ c 3).trans <| (W3_of_ne m ρ c main_arg4 (by decide)).trans <| (W2_of_ne m ρ c main_arg4 (by decide)).trans <| W1_of_ne m ρ c main_arg4 (by decide),
       (e main_arg5 (by decide)).trans <| (W4_in m ρ c 4).trans <| (W3_of_ne m ρ c main_arg5 (by decide)).trans <| (W2_of_ne m ρ c main_arg5 (by decide)).trans <| W1_of_ne m ρ c main_arg5 (by decide)⟩)

end Cert.KernelIdeal.Hand

end
-- ==== Proof.Spec.lean ====
import Idealize.ShloMosaic.PureOps.Ideal
import Idealize.ShloMosaic.PureOps.Ideal.Laws

noncomputable section

namespace Cert.Spec

open Idealize.ShloMosaic

abbrev St (δ : Type) : Type := EReal × EReal × (δ → EReal)

def init (δ : Type) : St δ := (⊥, 0, fun _ => 0)

def osStep {ι δ : Type} [Fintype ι] (s : ι → EReal) (v : ι → δ → EReal) (st : St δ) : St δ :=
  (max st.1 (Finset.univ.fold max ⊥ s),
   Ideal.exp (st.1 - max st.1 (Finset.univ.fold max ⊥ s)) * st.2.1
     + ∑ p, Ideal.exp (s p - max st.1 (Finset.univ.fold max ⊥ s)),
   fun d => Ideal.exp (st.1 - max st.1 (Finset.univ.fold max ⊥ s)) * st.2.2 d
     + ∑ p, Ideal.exp (s p - max st.1 (Finset.univ.fold max ⊥ s)) * v p d)

def osIter {δ : Type} (s : Fin 8 → Fin 1024 → EReal) (v : Fin 8 → Fin 1024 → δ → EReal) : (n : ℕ) → n ≤ 8 → St δ
  | 0, _ => init δ
  | n + 1, h => osStep (s ⟨n, h⟩) (v ⟨n, h⟩) (osIter s v n (Nat.le_of_succ_le h))

def osRow {δ : Type} (s : Fin 8 → Fin 1024 → EReal) (v : Fin 8 → Fin 1024 → δ → EReal)
    (sn : Fin 16 → EReal) (vn : Fin 16 → δ → EReal) (d : δ) : EReal :=
  Ideal.div ((osStep sn vn (osIter s v 8 le_rfl)).2.2 d) ((osStep sn vn (osIter s v 8 le_rfl)).2.1)

def smRow {δ : Type} (S : Fin 8208 → EReal) (V : Fin 8208 → δ → EReal) (d : δ) : EReal :=
  ∑ k, Ideal.div (Ideal.exp (S k - max ⊥ (Finset.univ.fold max ⊥ S)))
        (0 + ∑ k', Ideal.exp (S k' - max ⊥ (Finset.univ.fold max ⊥ S))) * V k d

def cacheKey (b : Fin 8) (p : Fin 1024) : Fin 8208 := ⟨b.val * 1024 + p.val, by omega⟩
def newKey (p : Fin 16) : Fin 8208 := ⟨8192 + p.val, by omega⟩

end Cert.Spec

end
-- ==== Proof.ValueSpec.lean ====
import proofs.«404056_j317827580171_3_alg».proof.Proof.Spec
import Idealize.ShloMosaic.Lib.ValueIdx

noncomputable section

namespace Cert.Spec

open Idealize.ShloMosaic Idealize.ShloMosaic.ValueIdx

abbrev SX : Shape := ⟨2, ![16, 4096]⟩
abbrev SW : Shape := ⟨2, ![4096, 4096]⟩
abbrev SC : Shape := ⟨3, ![32, 8192, 128]⟩
abbrev SH : Shape := ⟨3, ![32, 16, 128]⟩

def colOf (h : Fin 32) (d : Fin 128) : Fin 4096 := ⟨h.val * 128 + d.val, by omega⟩
def cacheRow (b : Fin 8) (p : Fin 1024) : Fin 8192 := ⟨b.val * 1024 + p.val, by omega⟩

def projAt (X : SX.Idx → EReal) (W : SW.Idx → EReal) (h : Fin 32) (r : Fin 16) (d : Fin 128) : EReal :=
  ∑ k : Fin 4096, X (ix2 r k) * W (ix2 k (colOf h d))

def joinAt (C : SC.Idx → EReal) (N : Fin 32 → Fin 16 → Fin 128 → EReal) (h : Fin 32) (k : Fin 8208) (dd : Fin 128) : EReal :=
  if hk : k.val < 8192 then C (ix3 h ⟨k.val, hk⟩ dd) else N h ⟨k.val - 8192, by omega⟩ dd

def attnAt (Q Kn Vn : SH.Idx → EReal) (CK CV : SC.Idx → EReal) (r : Fin 16) (h : Fin 32) (d : Fin 128) : EReal :=
  osRow (fun b p => ∑ dd : Fin 128, Q (ix3 h r dd) * CK (ix3 h (cacheRow b p) dd))
        (fun b p d' => CV (ix3 h (cacheRow b p) d'))
        (fun p => ∑ dd : Fin 128, Q (ix3 h r dd) * Kn (ix3 h p dd))
        (fun p d' => Vn (ix3 h p d')) d

def kerAt (X : SX.Idx → EReal) (Wq Wk Wv : SW.Idx → EReal) (CK CV : SC.Idx → EReal) (r : Fin 16) (h : Fin 32) (d : Fin 128) : EReal :=
  osRow (fun b p => ∑ dd : Fin 128, projAt X Wq h r dd * CK (ix3 h (cacheRow b p) dd))
        (fun b p d' => CV (ix3 h (cacheRow b p) d'))
        (fun p => ∑ dd : Fin 128, projAt X Wq h r dd * projAt X Wk h p dd)
        (fun p d' => projAt X Wv h p d') d

def refAt (X : SX.Idx → EReal) (Wq Wk Wv : SW.Idx → EReal) (CK CV : SC.Idx → EReal) (r : Fin 16) (h : Fin 32) (d : Fin 128) : EReal :=
  smRow (fun k => ∑ dd : Fin 128, projAt X Wq h r dd * joinAt CK (projAt X Wk) h k dd)
        (fun k d' => joinAt CV (projAt X Wv) h k d') d

end Cert.Spec

end
-- ==== Proof.KIProjValue.lean ====
import proofs.«404056_j317827580171_3_alg».proof.Proof.Gen.KernelIdeal.Skeleton
import proofs.«404056_j317827580171_3_alg».proof.Proof.ValueSpec
import Idealize.ShloMosaic.Lib.Pipeline.Value

noncomputable section

namespace Cert.KernelIdeal.Hand

open Cert.KernelIdeal Cert.KernelIdeal.Gen
open Idealize.ShloMosaic Idealize.ShloMosaic.TcCoe
open Idealize.ShloMosaic.ValueIdx

-- Regrouping columns into heads moves accumulator entry (r, hl * 128 + d) to block entry (hl, r, d).
theorem regroup_apply (acc : Vec Ideal S16x1024 .f32) (hl : Fin 8) (r : Fin 16) (d : Fin 128) :
    k0_pay3 (F := Ideal) acc (ix3 hl r d) = acc (ix2 r ⟨hl.val * 128 + d.val, by omega⟩) := by
  unfold k0_pay3
  refine (transpose_apply [1, 0, 2] _ transposes_S16x8x128_p1_0_2_S8x16x128 (ix3 hl r d) (ix3 r hl d) (fun b => match b with
    | ⟨0, _⟩ => rfl
    | ⟨1, _⟩ => rfl
    | ⟨2, _⟩ => rfl)).trans ?_
  exact shapeCast_apply acc shapeCasts_S16x1024_S16x8x128 (ix3 r hl d) (ix2 r ⟨hl.val * 128 + d.val, by omega⟩)
    (by rewrite [Shape.rowMajor_val_two, Shape.rowMajor_val_three]
        show r.val * 1024 + (hl.val * 128 + d.val) = (r.val * 8 + hl.val) * 128 + d.val
        omega)

-- A K-step adds to entry (r, cc) the products over its 2048 contraction indices.
theorem step_apply (x : Vec Ideal S16x2048 .f32) (w : Vec Ideal S2048x1024 .f32) (s : Vec Ideal S16x1024 .f32) (r : Fin 16) (cc : Fin 1024) :
    k0_pay2 (F := Ideal) x w s (ix2 r cc) = s (ix2 r cc) + ∑ k : Fin 2048, x (ix2 r k) * w (ix2 k cc) := by
  unfold k0_pay2
  rw [shapeCast_self]
  refine (addf_apply _ _ _).trans (congrArg _ ?_)
  simp only [matmul]
  rw [Ideal.matmul_constant_zero_apply, ← Equiv.sum_comp (contrEquiv1 dot_S16x2048_S2048x1024_S16x1024_1_0_0_1_n_n 2048 rfl rfl).symm]
  refine Finset.sum_congr rfl fun k _ => ?_
  have hk := contrEquiv1_symm_val dot_S16x2048_S2048x1024_S16x1024_1_0_0_1_n_n 2048 rfl rfl k
  have el : dot_S16x2048_S2048x1024_S16x1024_1_0_0_1_n_n.lhsIdx (ix2 r cc) ((contrEquiv1 dot_S16x2048_S2048x1024_S16x1024_1_0_0_1_n_n 2048 rfl rfl).symm k) = ix2 r k := funext fun a => Fin.ext (match a with
    | ⟨0, _⟩ => rfl
    | ⟨1, _⟩ => hk)
  have er : dot_S16x2048_S2048x1024_S16x1024_1_0_0_1_n_n.rhsIdx (ix2 r cc) ((contrEquiv1 dot_S16x2048_S2048x1024_S16x1024_1_0_0_1_n_n 2048 rfl rfl).symm k) = ix2 k cc := funext fun a => Fin.ext (match a with
    | ⟨0, _⟩ => hk
    | ⟨1, _⟩ => rfl)
  rw [el, er]
  rfl

theorem zeros_apply (r : Fin 16) (cc : Fin 1024) : k0_pay1 (F := Ideal) (ix2 r cc) = 0 := by
  unfold k0_pay1
  rw [shapeCast_self]
  exact Ideal.ofBits_zero_f32

/-- Point t is output tile t / 2 at K-step t % 2: the block indices of the two inputs and of the output. -/
def Sched {N : ℕ} (jx jw : Fin N → Fin 2 → ℕ) (jo : Fin N → Fin 3 → ℕ) : Prop :=
  ∀ t : Fin N, jx t 0 = 0 ∧ jx t 1 = t.val % 2 ∧ jw t 0 = t.val % 2 ∧ jw t 1 = t.val / 2
    ∧ jo t 0 = t.val / 2 ∧ jo t 1 = 0 ∧ jo t 2 = 0

/-- The projection X · W laid out by heads, as an array. -/
def projArr (X : Vec Ideal S16x4096 .f32) (W : Vec Ideal S4096x4096 .f32) : S32x16x128.Idx → EReal :=
  fun i => Cert.Spec.projAt X W ⟨(i 0).val, (i 0).isLt⟩ ⟨(i 1).val, (i 1).isLt⟩ ⟨(i 2).val, (i 2).isLt⟩

section
variable {N : ℕ} {acc : (n : ℕ) → n < N → Vec Ideal S16x1024 .f32}
  {xb : Fin N → Vec Ideal S16x2048 .f32} {wb : Fin N → Vec Ideal S2048x1024 .f32}
  {X : Vec Ideal S16x4096 .f32} {W : Vec Ideal S4096x4096 .f32}
  {jx jw : Fin N → Fin 2 → ℕ} {jo : Fin N → Fin 3 → ℕ} (hj : Sched jx jw jo)
  {ex : Fin N → S16x2048.Idx → S16x4096.Idx} {ew : Fin N → S2048x1024.Idx → S4096x4096.Idx}
  {eo : Fin N → S8x16x128.Idx → S32x16x128.Idx}
  (hxb : ∀ t y, xb t y = X (ex t y)) (hwb : ∀ t y, wb t y = W (ew t y))
  (hex : ∀ t y a, (ex t y a : ℕ) = jx t a * S16x2048.size a + y a)
  (hew : ∀ t y a, (ew t y a : ℕ) = jw t a * S2048x1024.size a + y a)
  (heo : ∀ t y a, (eo t y a : ℕ) = jo t a * S8x16x128.size a + y a)
  (he : ∀ t : Fin N, t.val % 2 = 0 → acc t.val t.isLt = k0_pay2 (xb t) (wb t) (k0_pay1 (F := Ideal)))
  (ho : ∀ t : Fin N, t.val % 2 = 1 → acc t.val t.isLt
    = k0_pay2 (xb t) (wb t) (acc (t.val - 1) (Nat.lt_of_le_of_lt (Nat.sub_le _ _) t.isLt)))

include hj hxb hwb hex hew in
-- The K-step at point t adds the products over contraction indices 2048 (t % 2) + k, against column 1024 (t / 2) + cc.
theorem step_at (t : Fin N) (s : Vec Ideal S16x1024 .f32) (r : Fin 16) (cc : Fin 1024) (c' : Fin 4096)
    (hc : c'.val = 1024 * (t.val / 2) + cc.val) (f : Fin 2048 → Fin 4096) (hf : ∀ k, (f k).val = 2048 * (t.val % 2) + k.val) :
    k0_pay2 (xb t) (wb t) s (ix2 r cc) = s (ix2 r cc) + ∑ k : Fin 2048, X (ix2 r (f k)) * W (ix2 (f k) c') := by
  obtain ⟨e0, e1, e2, e3, -⟩ := hj t
  refine (step_apply _ _ _ r cc).trans (congrArg _ (Finset.sum_congr rfl fun k _ => ?_))
  rw [hxb, hwb]
  congr 2 <;> funext a <;> apply Fin.ext
  · match a with
    | ⟨0, _⟩ => refine (hex t _ 0).trans ?_; show jx t 0 * 16 + r.val = r.val; rw [e0]; omega
    | ⟨1, _⟩ => refine (hex t _ 1).trans ?_; show jx t 1 * 2048 + k.val = (f k).val; rw [e1, hf]; omega
  · match a with
    | ⟨0, _⟩ => refine (hew t _ 0).trans ?_; show jw t 0 * 2048 + k.val = (f k).val; rw [e2, hf]; omega
    | ⟨1, _⟩ => refine (hew t _ 1).trans ?_; show jw t 1 * 1024 + cc.val = c'.val; rw [e3, hc]; omega

include hj hxb hwb hex hew he ho in
-- At a tile's second K-step the accumulator holds the whole contraction: zero, plus the first 2048 products, plus the last 2048.
theorem acc_odd_apply (t : Fin N) (ht : t.val % 2 = 1) (r : Fin 16) (cc : Fin 1024) (c' : Fin 4096)
    (hc : c'.val = 1024 * (t.val / 2) + cc.val) :
    acc t.val t.isLt (ix2 r cc) = ∑ k : Fin 4096, X (ix2 r k) * W (ix2 k c') := by
  have hlt : t.val - 1 < N := Nat.lt_of_le_of_lt (Nat.sub_le _ _) t.isLt
  rw [ho t ht, step_at hj hxb hwb hex hew t _ r cc c' hc (fun k => ⟨2048 + k.val, by omega⟩) (fun k => by show 2048 + k.val = _; omega),
    he ⟨t.val - 1, hlt⟩ (by show (t.val - 1) % 2 = 0; omega),
    step_at hj hxb hwb hex hew ⟨t.val - 1, hlt⟩ _ r cc c' (by show c'.val = 1024 * ((t.val - 1) / 2) + cc.val; omega)
      (fun k => ⟨k.val, by omega⟩) (fun k => by show k.val = 2048 * ((t.val - 1) % 2) + k.val; omega),
    zeros_apply, zero_add]
  exact (Fin.sum_univ_add (a := 2048) (b := 2048) fun k => X (ix2 r k) * W (ix2 k c')).symm

include hj hxb hwb hex hew heo he ho in
-- After a tile's second K-step the regrouped accumulator is the tile's block of the projection: column hl * 128 + d of tile j is column d of head 8 j + hl.
theorem proj_block (t : Fin N) (ht : t.val % 2 = 1) (y : S8x16x128.Idx) :
    k0_pay3 (F := Ideal) (acc t.val t.isLt) y = projArr X W (eo t y) := by
  obtain ⟨hl, r, d, rfl⟩ : ∃ (hl : Fin 8) (r : Fin 16) (d : Fin 128), y = ix3 hl r d := ⟨y 0, y 1, y 2, eq_ix3 y⟩
  obtain ⟨-, -, -, -, e4, e5, e6⟩ := hj t
  have h0 : (eo t (ix3 hl r d) 0).val = jo t 0 * 8 + hl.val := heo t _ 0
  have h1 : (eo t (ix3 hl r d) 1).val = jo t 1 * 16 + r.val := heo t _ 1
  have h2 : (eo t (ix3 hl r d) 2).val = jo t 2 * 128 + d.val := heo t _ 2
  rw [e4] at h0; rw [e5] at h1; rw [e6] at h2
  have hhl := hl.isLt
  have hd := d.isLt
  rw [regroup_apply, acc_odd_apply hj hxb hwb hex hew he ho t ht r ⟨hl.val * 128 + d.val, by omega⟩
    (Cert.Spec.colOf ⟨_, (eo t (ix3 hl r d) 0).isLt⟩ ⟨_, (eo t (ix3 hl r d) 2).isLt⟩)
    (by show (eo t (ix3 hl r d) 0).val * 128 + (eo t (ix3 hl r d) 2).val = 1024 * (t.val / 2) + (hl.val * 128 + d.val); omega)]
  unfold projArr Cert.Spec.projAt
  rw [show (⟨(eo t (ix3 hl r d) 1).val, (eo t (ix3 hl r d) 1).isLt⟩ : Fin 16) = r from Fin.ext (h1.trans (by omega))]

include hj in
-- Head h lies in the block of tile h / 8, which belongs to point 2 (h / 8) + 1: the four tiles cover the array.
theorem proj_cover (hN : N = 8) (i : S32x16x128.Idx) :
    ∃ t : Fin N, t.val % 2 = 1 ∧ ∀ a : Fin 3, jo t a * S8x16x128.size a ≤ (i a).val
      ∧ (i a).val < jo t a * S8x16x128.size a + S8x16x128.size a := by
  have hi0 : (i 0).val < 32 := (i 0).isLt
  have hi1 : (i 1).val < 16 := (i 1).isLt
  have hi2 : (i 2).val < 128 := (i 2).isLt
  have hlt : 2 * ((i 0).val / 8) + 1 < N := by omega
  obtain ⟨-, -, -, -, e4, e5, e6⟩ := hj ⟨2 * ((i 0).val / 8) + 1, hlt⟩
  have e4' : jo ⟨2 * ((i 0).val / 8) + 1, hlt⟩ 0 = (2 * ((i 0).val / 8) + 1) / 2 := e4
  refine ⟨⟨2 * ((i 0).val / 8) + 1, hlt⟩, by show (2 * ((i 0).val / 8) + 1) % 2 = 1; omega, fun a => ?_⟩
  match a with
  | ⟨0, _⟩ => show jo _ 0 * 8 ≤ (i 0).val ∧ (i 0).val < jo _ 0 * 8 + 8; rw [e4']; omega
  | ⟨1, _⟩ => show jo _ 1 * 16 ≤ (i 1).val ∧ (i 1).val < jo _ 1 * 16 + 16; rw [e5]; omega
  | ⟨2, _⟩ => show jo _ 2 * 128 ≤ (i 2).val ∧ (i 2).val < jo _ 2 * 128 + 128; rw [e6]; omega

end

end Cert.KernelIdeal.Hand

end
-- ==== Proof.KIValue0.lean ====
import proofs.«404056_j317827580171_3_alg».proof.Proof.KIRegion0
import proofs.«404056_j317827580171_3_alg».proof.Proof.KIProjValue

noncomputable section

namespace Cert.KernelIdeal.Hand

open Cert.KernelIdeal Cert.KernelIdeal.Gen Cert.KernelIdeal.Hand
open Idealize.ShloMosaic Idealize.ShloMosaic.TcCoe
open Idealize.ShloMosaic.ValueIdx

theorem sched0 : Sched win0_0.index win0_1.index win0_2.index :=
  (by decide +kernel : ∀ t : Fin grid0.N, _)

-- The call's output array ends holding the projection of its two input arrays.
theorem value0 (V : (c : Dev nD) → (b : Ref sig .tc) → Buf (Elt Ideal) ((c : Thread nD τ).loc b)) (c : Dev nD)
    (X : Vec Ideal S16x4096 .f32) (W : Vec Ideal S4096x4096 .f32)
    (hX : V c main_arg0 = X) (hW : V c main_arg1 = W) (h : Fin 32) (r : Fin 16) (d : Fin 128) :
    (dat0 (F := Ideal) V c).arrAt 2 cfg0.N (ix3 h r d) = Cert.Spec.projAt X W h r d := by
  refine (congrFun ((dat0 (F := Ideal) V c).arrAt_eq_of_cover 2 (projArr X W) (fun t hf => ?_) fun i => ?_) (ix3 h r d)).trans rfl
  · show (cfg0.win 2).cut (grid0.coords t) ((dat0 (F := Ideal) V c).after 2 t) = _
    rw [after0_2]
    exact funext fun y => proj_block (xb := iblk0 V c 0) (wb := iblk0 V c 1) sched0
      (fun t y => congrFun hX (((cfg0.win 0).blk t).view.emb y)) (fun t y => congrFun hW (((cfg0.win 1).blk t).view.emb y))
      win0_0.rect_emb_val win0_1.rect_emb_val win0_2.rect_emb_val (acc0_even V c) (acc0_odd V c) t ((flush0_2 t).mp hf) y
  · obtain ⟨t, h1, h2⟩ := proj_cover sched0 N_0 i
    refine ⟨t, (flush0_2 t).mpr h1, ?_⟩
    show i ∈ ((View.whole main_v0).slice (win0_2.rect t)).set
    rw [View.set_slice_whole, Rect.mem_set_unit]
    exact h2

end Cert.KernelIdeal.Hand

end
-- ==== Proof.KIValue1.lean ====
import proofs.«404056_j317827580171_3_alg».proof.Proof.KIRegion1
import proofs.«404056_j317827580171_3_alg».proof.Proof.KIProjValue

noncomputable section

namespace Cert.KernelIdeal.HandR1

open Cert.KernelIdeal Cert.KernelIdeal.Gen Cert.KernelIdeal.Hand
open Idealize.ShloMosaic Idealize.ShloMosaic.TcCoe
open Idealize.ShloMosaic.ValueIdx

theorem sched0 : Sched win1_0.index win1_1.index win1_2.index :=
  (by decide +kernel : ∀ t : Fin grid1.N, _)

-- The call's output array ends holding the projection of its two input arrays.
theorem value1 (V : (c : Dev nD) → (b : Ref sig .tc) → Buf (Elt Ideal) ((c : Thread nD τ).loc b)) (c : Dev nD)
    (X : Vec Ideal S16x4096 .f32) (W : Vec Ideal S4096x4096 .f32)
    (hX : V c main_arg0 = X) (hW : V c main_arg2 = W) (h : Fin 32) (r : Fin 16) (d : Fin 128) :
    (dat1 (F := Ideal) V c).arrAt 2 cfg1.N (ix3 h r d) = Cert.Spec.projAt X W h r d := by
  refine (congrFun ((dat1 (F := Ideal) V c).arrAt_eq_of_cover 2 (projArr X W) (fun t hf => ?_) fun i => ?_) (ix3 h r d)).trans rfl
  · show (cfg1.win 2).cut (grid1.coords t) ((dat1 (F := Ideal) V c).after 2 t) = _
    rw [after1_2]
    exact funext fun y => proj_block (xb := iblk1 V c 0) (wb := iblk1 V c 1) sched0
      (fun t y => congrFun hX (((cfg1.win 0).blk t).view.emb y)) (fun t y => congrFun hW (((cfg1.win 1).blk t).view.emb y))
      win1_0.rect_emb_val win1_1.rect_emb_val win1_2.rect_emb_val (acc1_even V c) (acc1_odd V c) t ((flush1_2 t).mp hf) y
  · obtain ⟨t, h1, h2⟩ := proj_cover sched0 N_1 i
    refine ⟨t, (flush1_2 t).mpr h1, ?_⟩
    show i ∈ ((View.whole main_v1).slice (win1_2.rect t)).set
    rw [View.set_slice_whole, Rect.mem_set_unit]
    exact h2

end Cert.KernelIdeal.HandR1

end
-- ==== Proof.KIValue2.lean ====
import proofs.«404056_j317827580171_3_alg».proof.Proof.KIRegion2
import proofs.«404056_j317827580171_3_alg».proof.Proof.KIProjValue

noncomputable section

namespace Cert.KernelIdeal.HandR2

open Cert.KernelIdeal Cert.KernelIdeal.Gen Cert.KernelIdeal.Hand
open Idealize.ShloMosaic Idealize.ShloMosaic.TcCoe
open Idealize.ShloMosaic.ValueIdx

theorem sched0 : Sched win2_0.index win2_1.index win2_2.index :=
  (by decide +kernel : ∀ t : Fin grid2.N, _)

-- The call's output array ends holding the projection of its two input arrays.
theorem value2 (V : (c : Dev nD) → (b : Ref sig .tc) → Buf (Elt Ideal) ((c : Thread nD τ).loc b)) (c : Dev nD)
    (X : Vec Ideal S16x4096 .f32) (W : Vec Ideal S4096x4096 .f32)
    (hX : V c main_arg0 = X) (hW : V c main_arg3 = W) (h : Fin 32) (r : Fin 16) (d : Fin 128) :
    (dat2 (F := Ideal) V c).arrAt 2 cfg2.N (ix3 h r d) = Cert.Spec.projAt X W h r d := by
  refine (congrFun ((dat2 (F := Ideal) V c).arrAt_eq_of_cover 2 (projArr X W) (fun t hf => ?_) fun i => ?_) (ix3 h r d)).trans rfl
  · show (cfg2.win 2).cut (grid2.coords t) ((dat2 (F := Ideal) V c).after 2 t) = _
    rw [after2_2]
    exact funext fun y => proj_block (xb := iblk2 V c 0) (wb := iblk2 V c 1) sched0
      (fun t y => congrFun hX (((cfg2.win 0).blk t).view.emb y)) (fun t y => congrFun hW (((cfg2.win 1).blk t).view.emb y))
      win2_0.rect_emb_val win2_1.rect_emb_val win2_2.rect_emb_val (acc2_even V c) (acc2_odd V c) t ((flush2_2 t).mp hf) y
  · obtain ⟨t, h1, h2⟩ := proj_cover sched0 N_2 i
    refine ⟨t, (flush2_2 t).mpr h1, ?_⟩
    show i ∈ ((View.whole main_v2).slice (win2_2.rect t)).set
    rw [View.set_slice_whole, Rect.mem_set_unit]
    exact h2

end Cert.KernelIdeal.HandR2

end
-- ==== Proof.KIAttnStep.lean ====
import proofs.«404056_j317827580171_3_alg».proof.Proof.Gen.KernelIdeal.Launch
import proofs.«404056_j317827580171_3_alg».proof.Proof.Gen.KernelIdeal.Skeleton
import proofs.«404056_j317827580171_3_alg».proof.Proof.Gen.KernelIdeal.Points
import proofs.«404056_j317827580171_3_alg».proof.Proof.KIAttnDefs
import proofs.«404056_j317827580171_3_alg».proof.Proof.ValueSpec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.ValueIdx

section Layout
variable {α : Type}

theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

end Layout

theorem ofBits_ninf : Ideal.ofBits .f32 0xFF800000#32 = ⊥ := by simp [Ideal.ofBits, Ideal.ieee]

theorem multiReduction_max_ax2_apply {a b c : ℕ} (src : FVec Ideal ⟨3, ![a, b, c]⟩ .f32)
    (h : Shape.Reduces ⟨3, ![a, b, c]⟩ [2] ⟨2, ![a, b]⟩) (hφ : FKind.Formats .f32)
    (hacc : (0xFF800000#32 : BitVec 32) = FKind.maximumf.neutral .f32 hφ) (i : Fin a) (j : Fin b) :
    multiReduction (F := Ideal) .maximumf [2] ⟨2, ![a, b]⟩ src 0xFF800000#32 h hφ hacc (ix2 i j)
      = (Finset.univ : Finset (Fin c)).fold max ⊥ (fun k => src (ix3 i j k)) := by
  refine (Ideal.multiReduction_maximumf_single src _ h hφ hacc (ix2 i j)).trans ?_
  show (Finset.univ : Finset (Fin c)).fold max (Ideal.ofBits .f32 0xFF800000#32) (fun k => src (h.lift (ix2 i j) k)) = _
  rw [ofBits_ninf]
  refine congrArg (fun f => Finset.fold max ⊥ f Finset.univ) (funext fun k => congrArg src (funext fun ax => Fin.ext ?_))
  match ax with
  | ⟨0, _⟩ => rfl
  | ⟨1, _⟩ => rfl
  | ⟨2, _⟩ => rfl

theorem multiReduction_add_ax2_apply {a b c : ℕ} (src : FVec Ideal ⟨3, ![a, b, c]⟩ .f32)
    (h : Shape.Reduces ⟨3, ![a, b, c]⟩ [2] ⟨2, ![a, b]⟩) (hφ : FKind.Formats .f32)
    (hacc : (0x00000000#32 : BitVec 32) = FKind.add.neutral .f32 hφ) (i : Fin a) (j : Fin b) :
    multiReduction (F := Ideal) .add [2] ⟨2, ![a, b]⟩ src 0x00000000#32 h hφ hacc (ix2 i j)
      = ∑ k : Fin c, src (ix3 i j k) := by
  refine (Ideal.multiReduction_add_single src _ h hφ hacc (ix2 i j)).trans ?_
  show ∑ k : Fin c, src (h.lift (ix2 i j) k) = _
  refine Finset.sum_congr rfl fun k _ => congrArg src (funext fun ax => Fin.ext ?_)
  match ax with
  | ⟨0, _⟩ => rfl
  | ⟨1, _⟩ => rfl
  | ⟨2, _⟩ => rfl

theorem matmul0_apply {sl sr so : Shape} {φ₁ φ₂ : FTy} (D : DotDims sl sr so) (n : ℕ) (hr : D.contr.rank = 1)
    (hs : D.contr.size ⟨0, by omega⟩ = n) (lhs : FVec Ideal sl φ₁) (rhs : FVec Ideal sr φ₂) (j : so.Idx)
    (L : Fin n → sl.Idx) (R : Fin n → sr.Idx)
    (hl : ∀ k, D.lhsIdx j ((contrEquiv1 D n hr hs).symm k) = L k)
    (hR : ∀ k, D.rhsIdx j ((contrEquiv1 D n hr hs).symm k) = R k) :
    matmul (F := Ideal) D none lhs rhs (constant so .f32 0x00000000#32) j = ∑ k : Fin n, lhs (L k) * rhs (R k) := by
  show FloatOps.matmul D none lhs rhs (constant so .f32 0x00000000#32) j = _
  rw [Ideal.matmul_constant_zero_apply, ← Equiv.sum_comp (contrEquiv1 D n hr hs).symm]
  exact Finset.sum_congr rfl fun k _ => by rw [hl, hR]

-- A batched product contracting the last axis of both operands, read at (b, m, n).
theorem mmNT_apply {B M N K : ℕ} {φ₁ φ₂ : FTy}
    (wf : DotDims.WF ⟨3, ![B, M, K]⟩ ⟨3, ![B, N, K]⟩ ⟨3, ![B, M, N]⟩ [2] [2] [1] [1] [0] [0])
    (lhs : FVec Ideal ⟨3, ![B, M, K]⟩ φ₁) (rhs : FVec Ideal ⟨3, ![B, N, K]⟩ φ₂) (b : Fin B) (m : Fin M) (n : Fin N) :
    matmul (F := Ideal) ⟨[2], [2], [1], [1], [0], [0], wf⟩ none lhs rhs (constant _ .f32 0x00000000#32) (ix3 b m n)
      = ∑ k : Fin K, lhs (ix3 b m k) * rhs (ix3 b n k) :=
  matmul0_apply _ K rfl rfl lhs rhs _ _ _
    (fun k => funext fun a => Fin.ext (match a with
      | ⟨0, _⟩ => rfl
      | ⟨1, _⟩ => rfl
      | ⟨2, _⟩ => (DotDims.lhsIdx_val_of_single _ rfl _ _).trans (contrEquiv1_symm_val _ K rfl rfl k)))
    (fun k => funext fun a => Fin.ext (match a with
      | ⟨0, _⟩ => rfl
      | ⟨1, _⟩ => rfl
      | ⟨2, _⟩ => (DotDims.rhsIdx_val_of_single _ rfl _ _).trans (contrEquiv1_symm_val _ K rfl rfl k)))

-- A batched product contracting the left operand's last axis with the right operand's middle axis.
theorem mmNN_apply {B M N K : ℕ} {φ₁ φ₂ : FTy}
    (wf : DotDims.WF ⟨3, ![B, M, K]⟩ ⟨3, ![B, K, N]⟩ ⟨3, ![B, M, N]⟩ [2] [1] [1] [2] [0] [0])
    (lhs : FVec Ideal ⟨3, ![B, M, K]⟩ φ₁) (rhs : FVec Ideal ⟨3, ![B, K, N]⟩ φ₂) (b : Fin B) (m : Fin M) (n : Fin N) :
    matmul (F := Ideal) ⟨[2], [1], [1], [2], [0], [0], wf⟩ none lhs rhs (constant _ .f32 0x00000000#32) (ix3 b m n)
      = ∑ k : Fin K, lhs (ix3 b m k) * rhs (ix3 b k n) :=
  matmul0_apply _ K rfl rfl lhs rhs _ _ _
    (fun k => funext fun a => Fin.ext (match a with
      | ⟨0, _⟩ => rfl
      | ⟨1, _⟩ => rfl
      | ⟨2, _⟩ => (DotDims.lhsIdx_val_of_single _ rfl _ _).trans (contrEquiv1_symm_val _ K rfl rfl k)))
    (fun k => funext fun a => Fin.ext (match a with
      | ⟨0, _⟩ => rfl
      | ⟨1, _⟩ => (DotDims.rhsIdx_val_of_single _ rfl _ _).trans (contrEquiv1_symm_val _ K rfl rfl k)
      | ⟨2, _⟩ => rfl))

theorem pay18_at (q : Vec Ideal S8x16x128 .f32) (kb : Vec Ideal S8x1024x128 .f32) (hl : Fin 8) (r : Fin 16) (p : Fin 1024) :
    k3_pay18 (F := Ideal) q kb (ix3 hl r p) = ∑ dd : Fin 128, q (ix3 hl r dd) * kb (ix3 hl p dd) := by
  unfold k3_pay18
  refine (mmNT_apply _ _ _ hl r p).trans ?_
  simp only [truncf_apply, shapeCast_self]

theorem pay7_at (q kn : Vec Ideal S8x16x128 .f32) (hl : Fin 8) (r : Fin 16) (p : Fin 16) :
    k3_pay7 (F := Ideal) q kn (ix3 hl r p) = ∑ dd : Fin 128, q (ix3 hl r dd) * kn (ix3 hl p dd) := by
  unfold k3_pay7
  refine (mmNT_apply _ _ _ hl r p).trans ?_
  simp only [truncf_apply, shapeCast_self]

theorem pay6_at (vn : Vec Ideal S8x16x128 .f32) (i : S8x16x128.Idx) : k3_pay6 (F := Ideal) vn i = vn i := by
  unfold k3_pay6
  try dsimp only
  rw [shapeCast_self]
  rfl

def rowSt (m l : Vec Ideal S8x16x1 .f32) (a : Vec Ideal S8x16x128 .f32) (hl : Fin 8) (r : Fin 16) : Cert.Spec.St (Fin 128) :=
  (m (ix3 hl r (0 : Fin 1)), l (ix3 hl r (0 : Fin 1)), fun d => a (ix3 hl r d))

theorem rowSt_init (hl : Fin 8) (r : Fin 16) :
    rowSt (at0M (F := Ideal)) (at0L (F := Ideal)) (at0A (F := Ideal)) hl r = Cert.Spec.init (Fin 128) := by
  refine Prod.ext ?_ (Prod.ext ?_ (funext fun d => ?_))
  · show k3_pay14 (F := Ideal) (ix3 hl r (0 : Fin 1)) = ⊥
    unfold k3_pay14
    try dsimp only
    rw [shapeCast_self]
    exact ofBits_ninf
  · show k3_pay15 (F := Ideal) (ix3 hl r (0 : Fin 1)) = 0
    unfold k3_pay15
    try dsimp only
    rw [shapeCast_self]
    exact Ideal.ofBits_zero_f32
  · show k3_pay16 (F := Ideal) (ix3 hl r d) = 0
    unfold k3_pay16
    try dsimp only
    rw [shapeCast_self]
    exact Ideal.ofBits_zero_f32

theorem exp_apply {s : Shape} {φ : FTy} (x : FVec Ideal s φ) (i : s.Idx) : exp x i = Ideal.exp (x i) := rfl

section Stream
variable {c : ℕ} (S : FVec Ideal ⟨3, ![8, 16, c]⟩ .f32) (W : FVec Ideal ⟨3, ![8, c, 128]⟩ .bf16)
  (m l : Vec Ideal S8x16x1 .f32) (a : Vec Ideal S8x16x128 .f32)
  (hred : Shape.Reduces ⟨3, ![8, 16, c]⟩ [2] S8x16) (hφ : FKind.Formats .f32)
  (hmx : (0xFF800000#32 : BitVec 32) = FKind.maximumf.neutral .f32 hφ)
  (had : (0x00000000#32 : BitVec 32) = FKind.add.neutral .f32 hφ)
  (hb : S8x16x1.Broadcasts ⟨3, ![8, 16, c]⟩)
  (wf : DotDims.WF ⟨3, ![8, 16, c]⟩ ⟨3, ![8, c, 128]⟩ S8x16x128 [2] [1] [1] [2] [0] [0])

def sMax : FVec Ideal S8x16x1 .f32 :=
  maximumf m (shapeCast S8x16x1 (multiReduction .maximumf [2] S8x16 S 0xFF800000#32 hred hφ hmx) shapeCasts_S8x16_S8x16x1)

def sTerms : FVec Ideal ⟨3, ![8, 16, c]⟩ .f32 := exp (subf S (broadcastTo _ (sMax S m hred hφ hmx) hb))

-- One streaming step over c keys with scores S and value rows W, as the kernel spells it, is the fold's step.
theorem stream_at (hl : Fin 8) (r : Fin 16) :
    rowSt (sMax S m hred hφ hmx)
      (addf (mulf (exp (subf m (sMax S m hred hφ hmx))) l)
        (shapeCast S8x16x1 (multiReduction .add [2] S8x16 (sTerms S m hred hφ hmx hb) 0x00000000#32 hred hφ had) shapeCasts_S8x16_S8x16x1))
      (addf (mulf (broadcastTo S8x16x128 (exp (subf m (sMax S m hred hφ hmx))) broadcasts_S8x16x1_S8x16x128) a)
        (matmul ⟨[2], [1], [1], [2], [0], [0], wf⟩ none (truncf .bf16 (sTerms S m hred hφ hmx hb) bitsLt_bf16_f32) W
          (constant S8x16x128 .f32 0x00000000#32))) hl r
      = Cert.Spec.osStep (fun p => S (ix3 hl r p)) (fun p d => W (ix3 hl p d)) (rowSt m l a hl r) := by
  have eM : ∀ u, sMax S m hred hφ hmx (ix3 hl r u)
      = max (m (ix3 hl r u)) ((Finset.univ : Finset (Fin c)).fold max ⊥ fun p => S (ix3 hl r p)) :=
    fun u => congrArg _ ((shapeCast_ab_ab1_apply _ _ hl r u).trans (multiReduction_max_ax2_apply _ _ _ _ hl r))
  have eP : ∀ p, sTerms S m hred hφ hmx hb (ix3 hl r p)
      = Ideal.exp (S (ix3 hl r p) - sMax S m hred hφ hmx (ix3 hl r (0 : Fin 1))) :=
    fun p => congrArg (fun x => Ideal.exp (S (ix3 hl r p) - x)) (broadcastTo_ab1_abc_apply _ _ hl r p)
  refine Prod.ext (eM 0) (Prod.ext ?_ (funext fun d => ?_))
  · show Ideal.exp (m (ix3 hl r 0) - sMax S m hred hφ hmx (ix3 hl r 0)) * l (ix3 hl r 0)
      + shapeCast S8x16x1 _ shapeCasts_S8x16_S8x16x1 (ix3 hl r 0) = _
    refine (congrArg _ ((shapeCast_ab_ab1_apply _ _ hl r 0).trans (multiReduction_add_ax2_apply _ _ _ _ hl r))).trans ?_
    simp only [eP, eM]
    rfl
  · show broadcastTo S8x16x128 _ broadcasts_S8x16x1_S8x16x128 (ix3 hl r d) * a (ix3 hl r d)
      + matmul _ none _ W _ (ix3 hl r d) = _
    refine (congrArg₂ (· + ·) (congrArg (· * a (ix3 hl r d)) (broadcastTo_ab1_abc_apply _ _ hl r d))
      (mmNN_apply _ _ _ hl r d)).trans ?_
    simp only [truncf_apply, exp_apply, subf_apply, eP, eM]
    rfl

end Stream

theorem rowSt_step (q : Vec Ideal S8x16x128 .f32) (kb vb : Vec Ideal S8x1024x128 .f32)
    (m l : Vec Ideal S8x16x1 .f32) (a : Vec Ideal S8x16x128 .f32) (hl : Fin 8) (r : Fin 16) :
    rowSt (stM q kb m) (stL q kb m l) (stA q kb vb m a) hl r
      = Cert.Spec.osStep (fun p : Fin 1024 => ∑ dd : Fin 128, q (ix3 hl r dd) * kb (ix3 hl p dd))
          (fun (p : Fin 1024) (d : Fin 128) => vb (ix3 hl p d)) (rowSt m l a hl r) := by
  have h := stream_at (k3_pay18 (F := Ideal) q kb) (k3_pay17 vb) m l a reduces_S8x16x1024_S8x16 (.inl rfl) rfl rfl
    broadcasts_S8x16x1_S8x16x1024 dot_S8x16x1024_S8x1024x128_S8x16x128_2_1_1_2_0_0_wf hl r
  simp only [pay18_at, k3_pay17, truncf_apply] at h
  refine Eq.trans ?_ h
  simp only [stM, stL, stA, k3_pay2, k3_pay22, k3_pay20, k3_pay1, k3_pay21, k3_pay19, shapeCast_self]
  rfl

theorem rowSt_merge (q kn vn : Vec Ideal S8x16x128 .f32)
    (m l : Vec Ideal S8x16x1 .f32) (a : Vec Ideal S8x16x128 .f32) (hl : Fin 8) (r : Fin 16) :
    rowSt (mgM q kn m) (mgL q kn m l) (mgA q kn vn m a) hl r
      = Cert.Spec.osStep (fun p : Fin 16 => ∑ dd : Fin 128, q (ix3 hl r dd) * kn (ix3 hl p dd))
          (fun (p : Fin 16) (d : Fin 128) => vn (ix3 hl p d)) (rowSt m l a hl r) := by
  have h := stream_at (k3_pay7 (F := Ideal) q kn) (k3_pay6 vn) m l a reduces_S8x16x16_S8x16 (.inl rfl) rfl rfl
    broadcasts_S8x16x1_S8x16x16 dot_S8x16x16_S8x16x128_S8x16x128_2_1_1_2_0_0_wf hl r
  simp only [pay7_at, pay6_at] at h
  refine Eq.trans ?_ h
  simp only [mgM, mgL, mgA, k3_pay4, k3_pay11, k3_pay9, k3_pay3, k3_pay12, k3_pay13, k3_pay10, k3_pay8, shapeCast_self]
  rfl

def colIn (hl : Fin 8) (d : Fin 128) : Fin 1024 := ⟨hl.val * 128 + d.val, by omega⟩

theorem transpose_ix3_102_apply {α : Type} {m a b : ℕ} (x : (⟨3, ![m, a, b]⟩ : Shape).Idx → α)
    (h : (⟨3, ![m, a, b]⟩ : Shape).Transposes [1, 0, 2] ⟨3, ![a, m, b]⟩) (j : Fin a) (k : Fin m) (i : Fin b) :
    transpose ⟨3, ![a, m, b]⟩ [1, 0, 2] x h (ix3 j k i) = x (ix3 k j i) :=
  transpose_apply _ x h _ _ fun c => match c with | ⟨0, _⟩ => rfl | ⟨1, _⟩ => rfl | ⟨2, _⟩ => rfl

theorem shapeCast_heads_apply {α : Type} (x : S16x8x128.Idx → α) (h : S16x8x128.ShapeCasts S16x1024)
    (r : Fin 16) (hl : Fin 8) (d : Fin 128) :
    shapeCast S16x1024 x h (ix2 r (colIn hl d)) = x (ix3 r hl d) :=
  shapeCast_apply x h _ _ (by
    rw [Shape.rowMajor_val_three, Shape.rowMajor_val_two]
    show (r.val * 8 + hl.val) * 128 + d.val = r.val * 1024 + (hl.val * 128 + d.val)
    omega)

theorem pay5_at (A : Vec Ideal S8x16x128 .f32) (L : Vec Ideal S8x16x1 .f32) (hl : Fin 8) (r : Fin 16) (d : Fin 128) :
    k3_pay5 (F := Ideal) A L (ix2 r (colIn hl d)) = Ideal.div (A (ix3 hl r d)) (L (ix3 hl r (0 : Fin 1))) := by
  unfold k3_pay5
  refine (shapeCast_heads_apply _ _ r hl d).trans ?_
  refine (transpose_ix3_102_apply _ _ r hl d).trans ?_
  refine (divf_apply _ _ _).trans ?_
  rw [broadcastTo_ab1_abc_apply]

theorem outB_at (q kn vn : Vec Ideal S8x16x128 .f32) (m l : Vec Ideal S8x16x1 .f32) (a : Vec Ideal S8x16x128 .f32)
    (hl : Fin 8) (r : Fin 16) (d : Fin 128) :
    outB q kn vn m l a (ix2 r (colIn hl d))
      = Ideal.div ((rowSt (mgM q kn m) (mgL q kn m l) (mgA q kn vn m a) hl r).2.2 d)
          ((rowSt (mgM q kn m) (mgL q kn m l) (mgA q kn vn m a) hl r).2.1) := by
  rw [outB, pay5_at]
  rfl

end Cert.KernelIdeal.Hand

end
-- ==== Proof.KIValue3.lean ====
import proofs.«404056_j317827580171_3_alg».proof.Proof.KIRegion3
import proofs.«404056_j317827580171_3_alg».proof.Proof.KIAttnStep

noncomputable section

namespace Cert.KernelIdeal.Hand

open Cert.KernelIdeal Cert.KernelIdeal.Gen
open Idealize.ShloMosaic Idealize.ShloMosaic.TcCoe
open Idealize.ShloMosaic.ValueIdx

-- Point t is head tile t / 8 at cached block t % 8: the block indices of the five inputs and of the output.
theorem where3 : ∀ t : Fin cfg3.N,
    (win3_0.index t (0 : Fin 3) = t.val / 8 ∧ win3_0.index t (1 : Fin 3) = 0 ∧ win3_0.index t (2 : Fin 3) = 0)
    ∧ (win3_1.index t (0 : Fin 3) = t.val / 8 ∧ win3_1.index t (1 : Fin 3) = 0 ∧ win3_1.index t (2 : Fin 3) = 0)
    ∧ (win3_2.index t (0 : Fin 3) = t.val / 8 ∧ win3_2.index t (1 : Fin 3) = 0 ∧ win3_2.index t (2 : Fin 3) = 0)
    ∧ (win3_3.index t (0 : Fin 3) = t.val / 8 ∧ win3_3.index t (1 : Fin 3) = t.val % 8 ∧ win3_3.index t (2 : Fin 3) = 0)
    ∧ (win3_4.index t (0 : Fin 3) = t.val / 8 ∧ win3_4.index t (1 : Fin 3) = t.val % 8 ∧ win3_4.index t (2 : Fin 3) = 0)
    ∧ win3_5.index t (0 : Fin 2) = 0 ∧ win3_5.index t (1 : Fin 2) = t.val / 8 :=
  (by decide +kernel : ∀ t : Fin grid3.N, _)

section
variable (V : (c : Dev nD) → (b : Ref sig .tc) → Buf (Elt Ideal) ((c : Thread nD τ).loc b)) (c : Dev nD)
variable (Q Kn Vn : Vec Ideal S32x16x128 .f32) (CK CV : Vec Ideal S32x8192x128 .f32)

-- Entry (hl, p, dd) of the block with index i of an array cut into blocks of 8 × n × 128 is array entry (8 i₀ + hl, n i₁ + p, dd).
theorem blk_at {N n : ℕ} {α : Type} (X : (⟨3, ![32, N, 128]⟩ : Shape).Idx → α) (y : (⟨3, ![32, N, 128]⟩ : Shape).Idx)
    (i : Fin 3 → ℕ) (hl : Fin 8) (p : Fin n) (dd : Fin 128) (h : Fin 32) (k : Fin N)
    (y0 : (y 0).val = i 0 * 8 + 1 * hl.val) (y1 : (y 1).val = i 1 * n + 1 * p.val) (y2 : (y 2).val = i 2 * 128 + 1 * dd.val)
    (hh : h.val = i 0 * 8 + hl.val) (hk : k.val = i 1 * n + p.val) (e2 : i 2 = 0) : X y = X (ix3 h k dd) :=
  congrArg X (funext fun a => Fin.ext (match a with
    | ⟨0, _⟩ => by show (y 0).val = h.val; omega
    | ⟨1, _⟩ => by show (y 1).val = k.val; omega
    | ⟨2, _⟩ => by show (y 2).val = dd.val; omega))

abbrev cachedScores (h : Fin 32) (r : Fin 16) : Fin 8 → Fin 1024 → EReal :=
  fun b p => ∑ dd : Fin 128, Q (ix3 h r dd) * CK (ix3 h (Cert.Spec.cacheRow b p) dd)
abbrev cachedValues (h : Fin 32) : Fin 8 → Fin 1024 → Fin 128 → EReal :=
  fun b p d' => CV (ix3 h (Cert.Spec.cacheRow b p) d')

theorem step_row (hQ : V c main_v0 = Q) (hCK : V c main_arg4 = CK) (hCV : V c main_arg5 = CV) (t : Fin cfg3.N)
    (hl : Fin 8) (r : Fin 16) (h : Fin 32) (hh : h.val = 8 * (t.val / 8) + hl.val) (b : Fin 8) (hb : b.val = t.val % 8)
    (s : Sc3 Ideal) :
    rowSt (stepAt V c t s).1 (stepAt V c t s).2.1 (stepAt V c t s).2.2 hl r
      = Cert.Spec.osStep (cachedScores Q CK h r b) (cachedValues CV h b) (rowSt s.1 s.2.1 s.2.2 hl r) := by
  subst hQ hCK hCV
  obtain ⟨⟨q0, q1, q2⟩, -, -, ⟨k0, k1, k2⟩, ⟨v0, v1, v2⟩, -⟩ := where3 t
  unfold stepAt
  dsimp only
  refine (rowSt_step _ _ _ _ _ _ hl r).trans ?_
  refine congrArg₂ (Cert.Spec.osStep · · _) (funext fun p => Finset.sum_congr rfl fun dd _ => congrArg₂ (fun x y : EReal => x * y) ?_ ?_)
    (funext fun p => funext fun d => ?_)
  · exact blk_at (V c main_v0) _ (win3_0.index t) hl r dd h r rfl rfl rfl (by omega) (by omega) q2
  · exact blk_at (V c main_arg4) _ (win3_3.index t) hl p dd h (Cert.Spec.cacheRow b p) rfl rfl rfl (by omega)
      (by show b.val * 1024 + p.val = _; omega) k2
  · exact blk_at (V c main_arg5) _ (win3_4.index t) hl p d h (Cert.Spec.cacheRow b p) rfl rfl rfl (by omega)
      (by show b.val * 1024 + p.val = _; omega) v2

abbrev newScores (h : Fin 32) (r : Fin 16) : Fin 16 → EReal := fun p => ∑ dd : Fin 128, Q (ix3 h r dd) * Kn (ix3 h p dd)
abbrev newValues (h : Fin 32) : Fin 16 → Fin 128 → EReal := fun p d' => Vn (ix3 h p d')

theorem merge_row (hQ : V c main_v0 = Q) (hK : V c main_v1 = Kn) (hV : V c main_v2 = Vn) (t : Fin cfg3.N)
    (hl : Fin 8) (r : Fin 16) (h : Fin 32) (hh : h.val = 8 * (t.val / 8) + hl.val) (s : Sc3 Ideal) :
    rowSt (mgM (iblk3 V c 0 t) (iblk3 V c 1 t) s.1) (mgL (iblk3 V c 0 t) (iblk3 V c 1 t) s.1 s.2.1)
        (mgA (iblk3 V c 0 t) (iblk3 V c 1 t) (iblk3 V c 2 t) s.1 s.2.2) hl r
      = Cert.Spec.osStep (newScores Q Kn h r) (newValues Vn h) (rowSt s.1 s.2.1 s.2.2 hl r) := by
  subst hQ hK hV
  obtain ⟨⟨q0, q1, q2⟩, ⟨k0, k1, k2⟩, ⟨v0, v1, v2⟩, -⟩ := where3 t
  refine (rowSt_merge _ _ _ _ _ _ hl r).trans ?_
  refine congrArg₂ (Cert.Spec.osStep · · _) (funext fun p => Finset.sum_congr rfl fun dd _ => congrArg₂ (fun x y : EReal => x * y) ?_ ?_)
    (funext fun p => funext fun d => ?_)
  · exact blk_at (V c main_v0) _ (win3_0.index t) hl r dd h r rfl rfl rfl (by omega) (by omega) q2
  · exact blk_at (V c main_v1) _ (win3_1.index t) hl p dd h p rfl rfl rfl (by omega) (by omega) k2
  · exact blk_at (V c main_v2) _ (win3_2.index t) hl p d h p rfl rfl rfl (by omega) (by omega) v2

theorem before_succ (n : ℕ) (hn : n + 1 < cfg3.N) (h0 : (n + 1) % 8 ≠ 0) :
    st3Before V c ⟨n + 1, hn⟩ = stepAt V c ⟨n, Nat.lt_of_succ_lt hn⟩ (st3Before V c ⟨n, Nat.lt_of_succ_lt hn⟩) := by
  have h7 : (⟨n, Nat.lt_of_succ_lt hn⟩ : Fin cfg3.N).val % 8 ≠ 7 := by show n % 8 ≠ 7; omega
  refine (show st3Before V c ⟨n + 1, hn⟩ = st3 V c n (Nat.lt_of_succ_lt hn) by
    unfold st3Before; rw [dif_neg (show ¬ (⟨n + 1, hn⟩ : Fin cfg3.N).val % 8 = 0 from h0)]; rfl).trans ?_
  by_cases h0' : n % 8 = 0
  · rw [st3_first V c ⟨n, _⟩ h0']; unfold st3Before; rw [dif_pos h0']
  · rw [st3_mid V c ⟨n, _⟩ h0' h7]; unfold st3Before; rw [dif_neg h0']

theorem state_at (hQ : V c main_v0 = Q) (hCK : V c main_arg4 = CK) (hCV : V c main_arg5 = CV) (hl : Fin 8) (r : Fin 16) :
    ∀ (n : ℕ) (hn : n < cfg3.N) (h : Fin 32), h.val = 8 * (n / 8) + hl.val → ∀ (k : ℕ) (hk : k ≤ 8), k = n % 8 + 1 →
      rowSt (stepAt V c ⟨n, hn⟩ (st3Before V c ⟨n, hn⟩)).1 (stepAt V c ⟨n, hn⟩ (st3Before V c ⟨n, hn⟩)).2.1
          (stepAt V c ⟨n, hn⟩ (st3Before V c ⟨n, hn⟩)).2.2 hl r
        = Cert.Spec.osIter (cachedScores Q CK h r) (cachedValues CV h) k hk := by
  intro n hn h hh k
  induction k generalizing n with
  | zero => intro _ hkn; omega
  | succ k ih =>
    intro hk hkn
    refine (step_row V c Q CK CV hQ hCK hCV ⟨n, hn⟩ hl r h hh ⟨k, hk⟩ (by show k = n % 8; omega) _).trans ?_
    by_cases h0 : n % 8 = 0
    · obtain rfl : k = 0 := by omega
      rw [show st3Before V c ⟨n, hn⟩ = sc3Init by unfold st3Before; rw [dif_pos h0]]
      exact congrArg _ (rowSt_init hl r)
    · obtain ⟨n, rfl⟩ : ∃ m, n = m + 1 := ⟨n - 1, by omega⟩
      rw [before_succ V c n hn h0, ih n (Nat.lt_of_succ_lt hn) (by omega) (Nat.le_of_succ_le hk) (by omega)]
      rfl

theorem out3_at (hQ : V c main_v0 = Q) (hK : V c main_v1 = Kn) (hV : V c main_v2 = Vn) (hCK : V c main_arg4 = CK)
    (hCV : V c main_arg5 = CV) (t : Fin cfg3.N) (ht : t.val % 8 = 7) (hl : Fin 8) (r : Fin 16) (d : Fin 128) (h : Fin 32)
    (hh : h.val = 8 * (t.val / 8) + hl.val) :
    (out3 V c t : Vec Ideal S16x1024 .f32) (ix2 r (colIn hl d)) = Cert.Spec.attnAt Q Kn Vn CK CV r h d := by
  obtain ⟨n, hn⟩ := t
  have ht' : n % 8 = 7 := ht
  have hh' : h.val = 8 * (n / 8) + hl.val := hh
  have hst := state_at V c Q CK CV hQ hCK hCV hl r n hn h hh' 8 le_rfl (by omega)
  have hmg := merge_row V c Q Kn Vn hQ hK hV ⟨n, hn⟩ hl r h hh (stepAt V c ⟨n, hn⟩ (st3Before V c ⟨n, hn⟩))
  rw [hst] at hmg
  unfold out3
  refine (outB_at _ _ _ _ _ _ hl r d).trans ?_
  rw [hmg]
  rfl

abbrev rowOf (i : S16x4096.Idx) : Fin 16 := ⟨(i 0).val, idx2_lt0 i⟩
abbrev headOf (i : S16x4096.Idx) : Fin 32 := ⟨(i 1).val / 128, by have := idx2_lt1 i; omega⟩
abbrev laneOf (i : S16x4096.Idx) : Fin 128 := ⟨(i 1).val % 128, Nat.mod_lt _ (by decide)⟩

def attnArr : Vec Ideal S16x4096 .f32 :=
  fun i => Cert.Spec.attnAt Q Kn Vn CK CV (rowOf i) (headOf i) (laneOf i)

end

-- The array ends holding the attention entries: head tile hi's block belongs to point 8 hi + 7, and the four tiles cover the array.
theorem value3 (V : (c : Dev nD) → (b : Ref sig .tc) → Buf (Elt Ideal) ((c : Thread nD τ).loc b)) (c : Dev nD)
    (Q Kn Vn : Vec Ideal S32x16x128 .f32) (CK CV : Vec Ideal S32x8192x128 .f32)
    (hQ : V c main_v0 = Q) (hK : V c main_v1 = Kn) (hV : V c main_v2 = Vn) (hCK : V c main_arg4 = CK) (hCV : V c main_arg5 = CV)
    (r : Fin 16) (h : Fin 32) (d : Fin 128) :
    (dat3 (F := Ideal) V c).arrAt 5 cfg3.N (ix2 r (Cert.Spec.colOf h d)) = Cert.Spec.attnAt Q Kn Vn CK CV r h d := by
  refine (congrFun ((dat3 (F := Ideal) V c).arrAt_eq_of_cover 5 (attnArr Q Kn Vn CK CV) (fun t hf => ?_) fun i => ?_) _).trans
    (congrArg₂ (Cert.Spec.attnAt Q Kn Vn CK CV r) (Fin.ext (by show (h.val * 128 + d.val) / 128 = h.val; omega))
      (Fin.ext (by show (h.val * 128 + d.val) % 128 = d.val; omega)))
  · have ht : t.val % 8 = 7 := (flush3_5 t).mp hf
    have htl : t.val < 32 := lt_of_lt_of_eq t.isLt N_3
    obtain ⟨-, -, -, -, -, e0, e1⟩ := where3 t
    show (cfg3.win 5).cut (grid3.coords t) ((dat3 (F := Ideal) V c).after 5 t) = _
    rw [after3_5]
    funext j
    obtain ⟨r, cc, rfl⟩ : ∃ (r : Fin 16) (cc : Fin 1024), j = ix2 r cc := ⟨j 0, j 1, eq_ix2 j⟩
    have hc : cc = colIn ⟨cc.val / 128, by omega⟩ ⟨cc.val % 128, Nat.mod_lt _ (by decide)⟩ :=
      Fin.ext (by show cc.val = cc.val / 128 * 128 + cc.val % 128; omega)
    show (out3 V c t : Vec Ideal S16x1024 .f32) (ix2 r cc) = Cert.Spec.attnAt Q Kn Vn CK CV _ _ _
    refine (congrArg (fun x => (out3 V c t : Vec Ideal S16x1024 .f32) (ix2 r x)) hc).trans
      ((out3_at V c Q Kn Vn CK CV hQ hK hV hCK hCV t ht ⟨cc.val / 128, by omega⟩ r ⟨cc.val % 128, Nat.mod_lt _ (by decide)⟩
        ⟨8 * (t.val / 8) + cc.val / 128, by omega⟩ rfl).trans ?_)
    exact congr (congr (congrArg _ (Fin.ext (by show r.val = win3_5.index t (0 : Fin 2) * 16 + 1 * r.val; omega)))
      (Fin.ext (by show 8 * (t.val / 8) + cc.val / 128 = (win3_5.index t (1 : Fin 2) * 1024 + 1 * cc.val) / 128; omega)))
      (Fin.ext (by show cc.val % 128 = (win3_5.index t (1 : Fin 2) * 1024 + 1 * cc.val) % 128; omega))
  · have h0 : (i 0).val < 16 := idx2_lt0 i
    have h1 : (i 1).val < 4096 := idx2_lt1 i
    obtain ⟨t, htv⟩ : ∃ t : Fin cfg3.N, t.val = 8 * ((i 1).val / 1024) + 7 :=
      ⟨⟨8 * ((i 1).val / 1024) + 7, lt_of_lt_of_eq (by omega) N_3.symm⟩, rfl⟩
    obtain ⟨-, -, -, -, -, e0, e1⟩ := where3 t
    refine ⟨t, (flush3_5 t).mpr (by omega), ?_⟩
    show i ∈ ((View.whole main_v3).slice (win3_5.rect t)).set
    rw [View.set_slice_whole, Rect.mem_set_unit]
    intro a
    match a with
    | ⟨0, _⟩ =>
      show win3_5.index t (0 : Fin 2) * 16 ≤ (i 0).val ∧ (i 0).val < win3_5.index t (0 : Fin 2) * 16 + 16
      omega
    | ⟨1, _⟩ =>
      show win3_5.index t (1 : Fin 2) * 1024 ≤ (i 1).val ∧ (i 1).val < win3_5.index t (1 : Fin 2) * 1024 + 1024
      omega

end Cert.KernelIdeal.Hand

end
-- ==== Proof.SpecLaw.lean ====
import proofs.«404056_j317827580171_3_alg».proof.Proof.Spec
import Mathlib.Analysis.SpecialFunctions.Exp
import Mathlib.Algebra.BigOperators.Field
import Mathlib.Tactic.FieldSimp
import Mathlib.Tactic.Ring

noncomputable section

namespace Cert.Spec

open Idealize.ShloMosaic

theorem coe_sum {κ : Type} (T : Finset κ) (f : κ → ℝ) :
    ((∑ k ∈ T, f k : ℝ) : EReal) = ∑ k ∈ T, ((f k : ℝ) : EReal) := by
  classical
  induction T using Finset.induction_on with
  | empty => simp
  | insert a T ha ih => rw [Finset.sum_insert ha, Finset.sum_insert ha, EReal.coe_add, ih]

theorem sum_mul_coe {κ : Type} [Fintype κ] (a b : κ → ℝ) :
    (∑ k, ((a k : ℝ) : EReal) * ((b k : ℝ) : EReal)) = ((∑ k, a k * b k : ℝ) : EReal) := by
  rw [coe_sum]
  exact Finset.sum_congr rfl fun k _ => (EReal.coe_mul _ _).symm

theorem coe_max (a b : ℝ) : ((max a b : ℝ) : EReal) = max ((a : ℝ) : EReal) ((b : ℝ) : EReal) :=
  EReal.coe_strictMono.monotone.map_max

theorem fold_max_coe {ι : Type} (T : Finset ι) (hT : T.Nonempty) (s : ι → ℝ) :
    ∃ m : ℝ, T.fold max ⊥ (fun p => ((s p : ℝ) : EReal)) = (m : EReal) := by
  classical
  induction hT using Finset.Nonempty.cons_induction with
  | singleton a => exact ⟨s a, by simp⟩
  | cons a T ha hT ih =>
    obtain ⟨m, hm⟩ := ih
    exact ⟨max (s a) m, by rw [Finset.fold_cons, hm, coe_max]⟩

theorem exp_coe_sub (x M : ℝ) :
    Ideal.exp (((x : ℝ) : EReal) - ((M : ℝ) : EReal)) = ((Real.exp (x - M) : ℝ) : EReal) := by
  rw [← EReal.coe_sub]; rfl

/-- The streaming state tracks the keys in T: its maximum is real (or nothing seen yet), and its sums are those of exp (S j - M) over T. -/
def Tracks {κ δ : Type} (S : κ → ℝ) (V : κ → δ → ℝ) (T : Finset κ) (st : St δ) : Prop :=
  ∃ M : ℝ, (st.1 = ((M : ℝ) : EReal) ∨ (st.1 = ⊥ ∧ T = ∅)) ∧
    st.2.1 = ((∑ j ∈ T, Real.exp (S j - M) : ℝ) : EReal) ∧
    ∀ d, st.2.2 d = ((∑ j ∈ T, Real.exp (S j - M) * V j d : ℝ) : EReal)

theorem tracks_init {κ δ : Type} (S : κ → ℝ) (V : κ → δ → ℝ) : Tracks S V ∅ (init δ) :=
  ⟨0, Or.inr ⟨rfl, rfl⟩, by simp [init], fun d => by simp [init]⟩

/-- One streaming step over fresh keys keeps the tracking: rescaling by exp (M - M') turns every exp (S j - M) into exp (S j - M'). -/
theorem tracks_step {κ δ ι : Type} [Fintype ι] [Nonempty ι] (S : κ → ℝ) (V : κ → δ → ℝ) (e : ι → κ)
    (he : Function.Injective e) (T T' : Finset κ) (hT' : ∀ k, k ∈ T' ↔ k ∈ T ∨ ∃ p, e p = k) (hd : ∀ p, e p ∉ T)
    (st : St δ) (h : Tracks S V T st) :
    Tracks S V T' (osStep (fun p => ((S (e p) : ℝ) : EReal)) (fun p d => ((V (e p) d : ℝ) : EReal)) st) := by
  classical
  obtain ⟨M, hM, hL, hA⟩ := h
  obtain ⟨m, hm⟩ := fold_max_coe Finset.univ Finset.univ_nonempty (fun p => S (e p))
  obtain ⟨M', hM'⟩ : ∃ M' : ℝ, max st.1 (Finset.univ.fold max ⊥ (fun p => ((S (e p) : ℝ) : EReal))) = ((M' : ℝ) : EReal) := by
    rcases hM with h1 | ⟨h1, _⟩
    · exact ⟨max M m, by rw [h1, hm, coe_max]⟩
    · exact ⟨m, by rw [h1, hm]; exact max_bot_left _⟩
  obtain ⟨c, hc, hc'⟩ : ∃ c : ℝ, Ideal.exp (st.1 - ((M' : ℝ) : EReal)) = ((c : ℝ) : EReal) ∧
      ∀ j ∈ T, c * Real.exp (S j - M) = Real.exp (S j - M') := by
    rcases hM with h1 | ⟨h1, h2⟩
    · refine ⟨Real.exp (M - M'), by rw [h1, exp_coe_sub], fun j _ => ?_⟩
      rw [← Real.exp_add]; congr 1; ring
    · refine ⟨0, by rw [h1, EReal.bot_sub]; rfl, fun j hj => ?_⟩
      rw [h2] at hj; simp at hj
  have hsum : ∀ f : κ → ℝ, ∑ j ∈ T', f j = ∑ j ∈ T, f j + ∑ p, f (e p) := by
    intro f
    have hTT : T' = T ∪ Finset.univ.image e := by
      ext k; simp [hT']
    have hdis : Disjoint T (Finset.univ.image e) := by
      rw [Finset.disjoint_left]; intro k hk hk'
      obtain ⟨p, _, rfl⟩ := Finset.mem_image.1 hk'
      exact hd p hk
    rw [hTT, Finset.sum_union hdis, Finset.sum_image (fun a _ b _ hab => he hab)]
  refine ⟨M', Or.inl hM', ?_, fun d => ?_⟩
  · show Ideal.exp (st.1 - max st.1 _) * st.2.1 + ∑ p, Ideal.exp (_ - max st.1 _) = _
    rw [hM', hc, hL, hsum, EReal.coe_add, coe_sum Finset.univ, ← EReal.coe_mul, Finset.mul_sum,
      Finset.sum_congr rfl hc']
    simp only [exp_coe_sub]
  · show Ideal.exp (st.1 - max st.1 _) * st.2.2 d + ∑ p, Ideal.exp (_ - max st.1 _) * _ = _
    rw [hM', hc, hA, hsum, EReal.coe_add, coe_sum Finset.univ, ← EReal.coe_mul, Finset.mul_sum]
    simp only [exp_coe_sub, EReal.coe_mul]
    congr 2
    exact Finset.sum_congr rfl fun j hj => by rw [← mul_assoc, hc' j hj]

theorem cacheKey_injective (b : Fin 8) : Function.Injective (cacheKey b) := by
  intro p q hpq
  have h := congrArg Fin.val hpq
  simp only [cacheKey] at h
  exact Fin.ext (by omega)

theorem newKey_injective : Function.Injective newKey := by
  intro p q hpq
  have h := congrArg Fin.val hpq
  simp only [newKey] at h
  exact Fin.ext (by omega)

theorem tracks_osIter {δ : Type} (S : Fin 8208 → ℝ) (V : Fin 8208 → δ → ℝ) (n : ℕ) (h : n ≤ 8) :
    Tracks S V (Finset.univ.filter (fun k : Fin 8208 => k.val < n * 1024))
      (osIter (fun b p => ((S (cacheKey b p) : ℝ) : EReal)) (fun b p d => ((V (cacheKey b p) d : ℝ) : EReal)) n h) := by
  induction n with
  | zero =>
    have h0 : (Finset.univ.filter (fun k : Fin 8208 => k.val < 0 * 1024)) = ∅ := by simp
    rw [h0]; exact tracks_init S V
  | succ n ih =>
    have h' : n ≤ 8 := Nat.le_of_succ_le h
    show Tracks S V _ (osStep _ _ (osIter _ _ n h'))
    refine tracks_step S V (cacheKey ⟨n, h⟩) (cacheKey_injective _) _ _ (fun k => ?_) (fun p => ?_) _ (ih h')
    · simp only [Finset.mem_filter, Finset.mem_univ, true_and]
      constructor
      · intro hk
        by_cases hlt : k.val < n * 1024
        · exact Or.inl hlt
        · exact Or.inr ⟨⟨k.val - n * 1024, by omega⟩, Fin.ext (by simp only [cacheKey]; omega)⟩
      · rintro (hk | ⟨p, rfl⟩)
        · omega
        · have := p.isLt
          simp only [cacheKey]; omega
    · have := p.isLt
      simp only [Finset.mem_filter, Finset.mem_univ, true_and, cacheKey]; omega

theorem tracks_univ_div {δ : Type} (S : Fin 8208 → ℝ) (V : Fin 8208 → δ → ℝ) (st : St δ)
    (h : Tracks S V Finset.univ st) (d : δ) :
    Ideal.div (st.2.2 d) st.2.1 = smRow (fun k => ((S k : ℝ) : EReal)) (fun k d => ((V k d : ℝ) : EReal)) d := by
  obtain ⟨M, -, hL, hA⟩ := h
  obtain ⟨M0, hM0⟩ := fold_max_coe Finset.univ Finset.univ_nonempty S
  have hLpos : 0 < ∑ j, Real.exp (S j - M) := Finset.sum_pos (fun j _ => Real.exp_pos _) Finset.univ_nonempty
  have hL0pos : 0 < ∑ j, Real.exp (S j - M0) := Finset.sum_pos (fun j _ => Real.exp_pos _) Finset.univ_nonempty
  have hc : ∀ k, Real.exp (S k - M) = Real.exp (M0 - M) * Real.exp (S k - M0) := fun k => by
    have hk : S k - M = (M0 - M) + (S k - M0) := by ring
    rw [hk, Real.exp_add]
  have hN : ∑ j, Real.exp (S j - M) * V j d = Real.exp (M0 - M) * ∑ j, Real.exp (S j - M0) * V j d := by
    rw [Finset.mul_sum]; exact Finset.sum_congr rfl fun j _ => by rw [hc, mul_assoc]
  have hLL : ∑ j, Real.exp (S j - M) = Real.exp (M0 - M) * ∑ j, Real.exp (S j - M0) := by
    rw [Finset.mul_sum]; exact Finset.sum_congr rfl fun j _ => hc j
  have hR : ∑ k, Real.exp (S k - M0) * (1 / ∑ j, Real.exp (S j - M0)) * V k d
      = (∑ k, Real.exp (S k - M0) * V k d) * (1 / ∑ j, Real.exp (S j - M0)) := by
    rw [Finset.sum_mul]; exact Finset.sum_congr rfl fun k _ => by ring
  have hreal : (∑ j, Real.exp (S j - M) * V j d) * (1 / ∑ j, Real.exp (S j - M))
      = ∑ k, Real.exp (S k - M0) * (1 / ∑ j, Real.exp (S j - M0)) * V k d := by
    have hpos := Real.exp_pos (M0 - M)
    rw [hR, hN, hLL]
    field_simp
  unfold smRow
  rw [hA, hL, Ideal.div_coe hLpos.ne', ← EReal.coe_mul, hreal, coe_sum]
  simp only [hM0, max_bot_left, exp_coe_sub, zero_add, ← coe_sum, Ideal.div_coe hL0pos.ne', ← EReal.coe_mul]

/-- On real scores and values the streaming row over eight cached blocks and the new tile is the one-piece softmax row. -/
theorem osRow_eq_smRow {δ : Type} (S : Fin 8208 → ℝ) (V : Fin 8208 → δ → ℝ) (d : δ) :
    osRow (fun b p => ((S (cacheKey b p) : ℝ) : EReal)) (fun b p d => ((V (cacheKey b p) d : ℝ) : EReal))
        (fun p => ((S (newKey p) : ℝ) : EReal)) (fun p d => ((V (newKey p) d : ℝ) : EReal)) d
      = smRow (fun k => ((S k : ℝ) : EReal)) (fun k d => ((V k d : ℝ) : EReal)) d := by
  unfold osRow
  refine tracks_univ_div S V _ ?_ d
  refine tracks_step S V newKey newKey_injective _ _ (fun k => ?_) (fun p => ?_) _ (tracks_osIter S V 8 le_rfl)
  · simp only [Finset.mem_filter, Finset.mem_univ, true_and, true_iff]
    by_cases hlt : k.val < 8 * 1024
    · exact Or.inl hlt
    · have := k.isLt
      exact Or.inr ⟨⟨k.val - 8192, by omega⟩, Fin.ext (by simp only [newKey]; omega)⟩
  · simp only [Finset.mem_filter, Finset.mem_univ, true_and, newKey]; omega

end Cert.Spec

end
-- ==== Proof.ValueLaw.lean ====
import proofs.«404056_j317827580171_3_alg».proof.Proof.SpecLaw
import proofs.«404056_j317827580171_3_alg».proof.Proof.ValueSpec

noncomputable section

namespace Cert.Spec

open Idealize.ShloMosaic Idealize.ShloMosaic.ValueIdx

def projR (x : SX.Idx → ℝ) (w : SW.Idx → ℝ) (h : Fin 32) (r : Fin 16) (d : Fin 128) : ℝ :=
  ∑ k : Fin 4096, x (ix2 r k) * w (ix2 k (colOf h d))

theorem projAt_coe {X : SX.Idx → EReal} {W : SW.Idx → EReal} {x : SX.Idx → ℝ} {w : SW.Idx → ℝ}
    (hx : ∀ i, X i = ((x i : ℝ) : EReal)) (hw : ∀ i, W i = ((w i : ℝ) : EReal)) (h : Fin 32) (r : Fin 16) (d : Fin 128) :
    projAt X W h r d = ((projR x w h r d : ℝ) : EReal) := by
  unfold projAt projR
  simp only [hx, hw]
  exact sum_mul_coe _ _

theorem projAt_real (X : SX.Idx → EReal) (W : SW.Idx → EReal) (hX : ∀ i, ∃ x : ℝ, X i = (x : EReal)) (hW : ∀ i, ∃ x : ℝ, W i = (x : EReal))
    (h : Fin 32) (r : Fin 16) (d : Fin 128) : ∃ x : ℝ, projAt X W h r d = (x : EReal) := by
  choose x hx using hX
  choose w hw using hW
  exact ⟨projR x w h r d, projAt_coe hx hw h r d⟩

def joinR (c : SC.Idx → ℝ) (n : Fin 32 → Fin 16 → Fin 128 → ℝ) (h : Fin 32) (k : Fin 8208) (dd : Fin 128) : ℝ :=
  if hk : k.val < 8192 then c (ix3 h ⟨k.val, hk⟩ dd) else n h ⟨k.val - 8192, by omega⟩ dd

theorem joinAt_coe {C : SC.Idx → EReal} {N : Fin 32 → Fin 16 → Fin 128 → EReal} {c : SC.Idx → ℝ}
    {n : Fin 32 → Fin 16 → Fin 128 → ℝ} (hc : ∀ i, C i = ((c i : ℝ) : EReal))
    (hn : ∀ h p d, N h p d = ((n h p d : ℝ) : EReal)) (h : Fin 32) (k : Fin 8208) (dd : Fin 128) :
    joinAt C N h k dd = ((joinR c n h k dd : ℝ) : EReal) := by
  unfold joinAt joinR
  by_cases hk : k.val < 8192
  · simp only [dif_pos hk]; exact hc _
  · simp only [dif_neg hk]; exact hn _ _ _

theorem joinR_cacheKey (c : SC.Idx → ℝ) (n : Fin 32 → Fin 16 → Fin 128 → ℝ) (h : Fin 32) (b : Fin 8) (p : Fin 1024)
    (dd : Fin 128) : joinR c n h (cacheKey b p) dd = c (ix3 h (cacheRow b p) dd) := by
  have hk : (cacheKey b p).val < 8192 := by
    have := p.isLt; have := b.isLt
    show b.val * 1024 + p.val < 8192
    omega
  unfold joinR
  rw [dif_pos hk]
  rfl

theorem joinR_newKey (c : SC.Idx → ℝ) (n : Fin 32 → Fin 16 → Fin 128 → ℝ) (h : Fin 32) (p : Fin 16)
    (dd : Fin 128) : joinR c n h (newKey p) dd = n h p dd := by
  have hk : ¬ (newKey p).val < 8192 := by
    show ¬ 8192 + p.val < 8192
    omega
  unfold joinR
  rw [dif_neg hk]
  exact congrArg (fun q => n h q dd) (Fin.ext (show 8192 + p.val - 8192 = p.val by omega))

def scoreR (x : SX.Idx → ℝ) (wq wk : SW.Idx → ℝ) (ck : SC.Idx → ℝ) (r : Fin 16) (h : Fin 32) (k : Fin 8208) : ℝ :=
  ∑ dd : Fin 128, projR x wq h r dd * joinR ck (projR x wk) h k dd

def valueR (x : SX.Idx → ℝ) (wv : SW.Idx → ℝ) (cv : SC.Idx → ℝ) (h : Fin 32) (k : Fin 8208) (d' : Fin 128) : ℝ :=
  joinR cv (projR x wv) h k d'

/-- On real inputs the kernel's spelling of an output entry equals the reference's: both are the softmax row of the same real scores and values. -/
theorem kerAt_eq_refAt (X : SX.Idx → EReal) (Wq Wk Wv : SW.Idx → EReal) (CK CV : SC.Idx → EReal)
    (hX : ∀ i, ∃ x : ℝ, X i = (x : EReal)) (hWq : ∀ i, ∃ x : ℝ, Wq i = (x : EReal)) (hWk : ∀ i, ∃ x : ℝ, Wk i = (x : EReal))
    (hWv : ∀ i, ∃ x : ℝ, Wv i = (x : EReal)) (hCK : ∀ i, ∃ x : ℝ, CK i = (x : EReal)) (hCV : ∀ i, ∃ x : ℝ, CV i = (x : EReal))
    (r : Fin 16) (h : Fin 32) (d : Fin 128) :
    kerAt X Wq Wk Wv CK CV r h d = refAt X Wq Wk Wv CK CV r h d := by
  choose x hx using hX
  choose wq hwq using hWq
  choose wk hwk using hWk
  choose wv hwv using hWv
  choose ck hck using hCK
  choose cv hcv using hCV
  have e1 : (fun (b : Fin 8) (p : Fin 1024) => ∑ dd : Fin 128, projAt X Wq h r dd * CK (ix3 h (cacheRow b p) dd))
      = fun b p => ((scoreR x wq wk ck r h (cacheKey b p) : ℝ) : EReal) := by
    funext b p
    simp only [projAt_coe hx hwq, hck, scoreR, joinR_cacheKey]
    exact sum_mul_coe _ _
  have e2 : (fun (b : Fin 8) (p : Fin 1024) (d' : Fin 128) => CV (ix3 h (cacheRow b p) d'))
      = fun b p d' => ((valueR x wv cv h (cacheKey b p) d' : ℝ) : EReal) := by
    funext b p d'
    rw [hcv]; unfold valueR; rw [joinR_cacheKey]
  have e3 : (fun (p : Fin 16) => ∑ dd : Fin 128, projAt X Wq h r dd * projAt X Wk h p dd)
      = fun p => ((scoreR x wq wk ck r h (newKey p) : ℝ) : EReal) := by
    funext p
    simp only [projAt_coe hx hwq, projAt_coe hx hwk, scoreR, joinR_newKey]
    exact sum_mul_coe _ _
  have e4 : (fun (p : Fin 16) (d' : Fin 128) => projAt X Wv h p d')
      = fun p d' => ((valueR x wv cv h (newKey p) d' : ℝ) : EReal) := by
    funext p d'
    rw [projAt_coe hx hwv]; unfold valueR; rw [joinR_newKey]
  have e5 : (fun (k : Fin 8208) => ∑ dd : Fin 128, projAt X Wq h r dd * joinAt CK (projAt X Wk) h k dd)
      = fun k => ((scoreR x wq wk ck r h k : ℝ) : EReal) := by
    funext k
    simp only [projAt_coe hx hwq, joinAt_coe hck (projAt_coe hx hwk), scoreR]
    exact sum_mul_coe _ _
  have e6 : (fun (k : Fin 8208) (d' : Fin 128) => joinAt CV (projAt X Wv) h k d')
      = fun k d' => ((valueR x wv cv h k d' : ℝ) : EReal) := by
    funext k d'
    exact joinAt_coe hcv (projAt_coe hx hwv) h k d'
  unfold kerAt refAt
  rw [e1, e2, e3, e4, e5, e6]
  exact osRow_eq_smRow (scoreR x wq wk ck r h) (valueR x wv cv h) d

end Cert.Spec

end
-- ==== Proof.RefImports.lean ====
import proofs.«404056_j317827580171_3_alg».proof.Defs
import proofs.«404056_j317827580171_3_alg».proof.Proof.Gen.ReferenceIdeal.Run
import proofs.«404056_j317827580171_3_alg».proof.Proof.Gen.ReferenceIdeal.Read
-- ==== Proof.RefValue.lean ====
import proofs.«404056_j317827580171_3_alg».proof.Proof.RefImports
import proofs.«404056_j317827580171_3_alg».proof.Proof.ValueSpec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx

variable (X : (⟨S16x4096, .f32⟩ : BufTy).Contents (Elt Ideal)) (W Wq Wk Wv : (⟨S4096x4096, .f32⟩ : BufTy).Contents (Elt Ideal)) (CK CV : (⟨S32x8192x128, .f32⟩ : BufTy).Contents (Elt Ideal))

theorem negInf : Ideal.ofBits .f32 0xFF800000#32 = (⊥ : EReal) := by
  simp [Ideal.ofBits, Ideal.ieee]

theorem lidx_proj (h : Fin 32) (r : Fin 16) (dd : Fin 128) (k : Fin 4096) :
    lidx_main_v0 (idx_main_v1 (idx_main_v2 (ix3 h r dd))) k = ix2 r k :=
  funext fun a => Fin.ext (by
    match a with
    | ⟨0, _⟩ => show ((r.val * 32 + h.val) * 128 + dd.val) / 4096 = r.val; omega
    | ⟨1, _⟩ => rfl)

theorem ridx_proj (h : Fin 32) (r : Fin 16) (dd : Fin 128) (k : Fin 4096) :
    ridx_main_v0 (idx_main_v1 (idx_main_v2 (ix3 h r dd))) k = ix2 k (Cert.Spec.colOf h dd) :=
  funext fun a => Fin.ext (by
    match a with
    | ⟨0, _⟩ => rfl
    | ⟨1, _⟩ => show ((r.val * 32 + h.val) * 128 + dd.val) % 4096 = h.val * 128 + dd.val; omega)

/-- A projection stage read at (head, row, column): the row of X against the column of W. -/
theorem proj_q (h : Fin 32) (r : Fin 16) (dd : Fin 128) :
    Read.val_main_v2 (F := Ideal) X W (ix3 h r dd) = Cert.Spec.projAt X W h r dd := by
  rw [val_main_v2_apply, val_main_v1_apply, val_main_v0_apply]
  unfold Cert.Spec.projAt
  refine Finset.sum_congr rfl fun k _ => ?_
  rw [lidx_proj, ridx_proj]

theorem proj_k (h : Fin 32) (r : Fin 16) (dd : Fin 128) :
    Read.val_main_v5 (F := Ideal) X W (ix3 h r dd) = Cert.Spec.projAt X W h r dd := proj_q X W h r dd

theorem proj_v (h : Fin 32) (r : Fin 16) (dd : Fin 128) :
    Read.val_main_v8 (F := Ideal) X W (ix3 h r dd) = Cert.Spec.projAt X W h r dd := proj_q X W h r dd

/-- The concatenation along the key axis reads the cache below 8192 and the new tile from there on. -/
theorem join_read (C : (⟨S32x8192x128, .f32⟩ : BufTy).Contents (Elt Ideal)) (N : (⟨S32x16x128, .f32⟩ : BufTy).Contents (Elt Ideal))
    (h : Fin 32) (k : Fin 8208) (dd : Fin 128) :
    concatenate S32x8208x128 1 [⟨S32x8192x128, C⟩, ⟨S32x16x128, N⟩] concatenates_S32x8192x128_S32x16x128_S32x8208x128_d1 (ix3 h k dd)
      = if hk : k.val < 8192 then C (ix3 h ⟨k.val, hk⟩ dd) else N (ix3 h ⟨k.val - 8192, by omega⟩ dd) := by
  by_cases hk : k.val < 8192
  · rw [dif_pos hk]
    exact concatenate_pair_apply_left (1 : Fin S32x8208x128.rank) C N _ (ix3 h k dd) rfl (ix3 h ⟨k.val, hk⟩ dd)
      (fun b => by match b with | ⟨0, _⟩ => rfl | ⟨1, _⟩ => rfl | ⟨2, _⟩ => rfl)
  · rw [dif_neg hk]
    exact concatenate_pair_apply_right (1 : Fin S32x8208x128.rank) C N _ (ix3 h k dd) rfl rfl (ix3 h ⟨k.val - 8192, by omega⟩ dd)
      (fun b hb => by
        match b, hb with
        | ⟨0, _⟩, _ => rfl
        | ⟨1, _⟩, hb => exact absurd rfl hb
        | ⟨2, _⟩, _ => rfl)
      (by show (k.val - 8192) + 8192 = k.val; omega)

theorem join_k (h : Fin 32) (k : Fin 8208) (dd : Fin 128) :
    Read.val_main_v9 (F := Ideal) X Wk CK (ix3 h k dd) = Cert.Spec.joinAt CK (Cert.Spec.projAt X Wk) h k dd := by
  unfold Read.val_main_v9 Cert.Spec.joinAt
  rw [join_read]
  by_cases hk : k.val < 8192
  · rw [dif_pos hk, dif_pos hk]
  · rw [dif_neg hk, dif_neg hk, proj_k]

theorem join_v (h : Fin 32) (k : Fin 8208) (dd : Fin 128) :
    Read.val_main_v10 (F := Ideal) X Wv CV (ix3 h k dd) = Cert.Spec.joinAt CV (Cert.Spec.projAt X Wv) h k dd := by
  unfold Read.val_main_v10 Cert.Spec.joinAt
  rw [join_read]
  by_cases hk : k.val < 8192
  · rw [dif_pos hk, dif_pos hk]
  · rw [dif_neg hk, dif_neg hk, proj_v]

def score (r : Fin 16) (h : Fin 32) (k : Fin 8208) : EReal :=
  ∑ dd : Fin 128, Cert.Spec.projAt X Wq h r dd * Cert.Spec.joinAt CK (Cert.Spec.projAt X Wk) h k dd

theorem score_at (r : Fin 16) (h : Fin 32) (k : Fin 8208) :
    Read.val_main_v11 (F := Ideal) X Wq Wk CK (ix3 h r k) = score X Wq Wk CK r h k := by
  rw [val_main_v11_apply]
  unfold score
  refine Finset.sum_congr rfl fun dd _ => ?_
  have el : lidx_main_v11 (ix3 h r k) dd = ix3 h r dd :=
    funext fun a => Fin.ext (by match a with | ⟨0, _⟩ => rfl | ⟨1, _⟩ => rfl | ⟨2, _⟩ => rfl)
  have er : ridx_main_v11 (ix3 h r k) dd = ix3 h k dd :=
    funext fun a => Fin.ext (by match a with | ⟨0, _⟩ => rfl | ⟨1, _⟩ => rfl | ⟨2, _⟩ => rfl)
  rw [el, er, proj_q, join_k]

theorem lift_row (hR : S32x16x8208.Reduces [2] S32x16) (h : Fin 32) (r : Fin 16) (k : Fin (S32x16x8208.size 2)) :
    hR.lift (ix2 h r) k = ix3 h r (⟨k.val, k.isLt⟩ : Fin 8208) := by
  funext c; apply Fin.ext
  fin_cases c <;> rfl

theorem rowmax_at (r : Fin 16) (h : Fin 32) :
    Read.val_main_v12 (F := Ideal) X Wq Wk CK (ix2 h r) = Finset.univ.fold max ⊥ (fun k : Fin 8208 => score X Wq Wk CK r h k) := by
  have hR : S32x16x8208.Reduces [2] S32x16 := by decide
  unfold Read.val_main_v12
  rw [Host.reduce_eq_fold_single FloatOps.maximumf _ _ reducesTo_S32x16x8208_S32x16_d2 hR h_S_]
  have hf : (Read.val_main_v11 (F := Ideal) X Wq Wk CK ∘ hR.lift (ix2 h r)) = fun k : Fin 8208 => score X Wq Wk CK r h k :=
    funext fun k => by
      show Read.val_main_v11 (F := Ideal) X Wq Wk CK (hR.lift (ix2 h r) k) = _
      rw [lift_row hR h r k]; exact score_at X Wq Wk CK r h ⟨k.val, k.isLt⟩
  have hi : Read.val_main_cst (F := Ideal) (Shape.Idx.first h_S_) = (⊥ : EReal) := by
    rw [val_main_cst_apply, Ideal.ofBits_def, negInf]
  rw [hi]
  exact congrArg (fun f => Finset.fold max (⊥ : EReal) f (Finset.univ : Finset (Fin 8208))) hf

def rowMax (r : Fin 16) (h : Fin 32) : EReal :=
  max ⊥ (Finset.univ.fold max ⊥ (fun k : Fin 8208 => score X Wq Wk CK r h k))

theorem bmax_at (r : Fin 16) (h : Fin 32) (k : Fin 8208) :
    Read.val_main_v16 (F := Ideal) X Wq Wk CK (ix3 h r k) = rowMax X Wq Wk CK r h := by
  have e : idx_main_v15 (idx_main_v16 (ix3 h r k)) = ix2 h r :=
    funext fun a => Fin.ext (by match a with | ⟨0, _⟩ => rfl | ⟨1, _⟩ => rfl)
  rw [val_main_v16_apply, val_main_v15_apply, e, val_main_v14_apply, val_main_v13_apply, val_main_cst_0_apply, rowmax_at,
    Ideal.ofBits_def, negInf, Ideal.maximumf_def]
  rfl

theorem expo_at (r : Fin 16) (h : Fin 32) (k : Fin 8208) :
    Read.val_main_v18 (F := Ideal) X Wq Wk CK (ix3 h r k) = Ideal.exp (score X Wq Wk CK r h k - rowMax X Wq Wk CK r h) := by
  rw [val_main_v18_apply, val_main_v17_apply, score_at, bmax_at, Ideal.subf_def, Ideal.hostUnary_exp_def]

def rowSum (r : Fin 16) (h : Fin 32) : EReal :=
  0 + ∑ k' : Fin 8208, Ideal.exp (score X Wq Wk CK r h k' - rowMax X Wq Wk CK r h)

theorem bsum_at (r : Fin 16) (h : Fin 32) (k : Fin 8208) :
    Read.val_main_v21 (F := Ideal) X Wq Wk CK (ix3 h r k) = rowSum X Wq Wk CK r h := by
  have e : idx_main_v20 (idx_main_v21 (ix3 h r k)) = ix2 h r :=
    funext fun a => Fin.ext (by match a with | ⟨0, _⟩ => rfl | ⟨1, _⟩ => rfl)
  rw [val_main_v21_apply, val_main_v20_apply, e, val_main_v19_apply, val_main_cst_1_apply, Ideal.ofBits_def, Ideal.ofBits_zero_f32]
  unfold rowSum
  refine congrArg (0 + ·) (Finset.sum_congr rfl fun k' _ => ?_)
  have e' : idx_main_v19 (ix2 h r) k' = ix3 h r k' :=
    funext fun a => Fin.ext (by match a with | ⟨0, _⟩ => rfl | ⟨1, _⟩ => rfl | ⟨2, _⟩ => rfl)
  rw [e', expo_at]

theorem weight_at (r : Fin 16) (h : Fin 32) (k : Fin 8208) :
    Read.val_main_v22 (F := Ideal) X Wq Wk CK (ix3 h r k)
      = Ideal.div (Ideal.exp (score X Wq Wk CK r h k - rowMax X Wq Wk CK r h)) (rowSum X Wq Wk CK r h) := by
  rw [val_main_v22_apply, expo_at, bsum_at, Ideal.hostDivf_def]

theorem idx_out (r : Fin 16) (h : Fin 32) (d : Fin 128) :
    idx_main_v24 (idx_main_v25 (ix2 r (Cert.Spec.colOf h d))) = ix3 h r d :=
  funext fun a => Fin.ext (by
    match a with
    | ⟨0, _⟩ => show (r.val * 4096 + (h.val * 128 + d.val)) / 128 % 32 = h.val; omega
    | ⟨1, _⟩ => show (r.val * 4096 + (h.val * 128 + d.val)) / 4096 = r.val; omega
    | ⟨2, _⟩ => show (r.val * 4096 + (h.val * 128 + d.val)) % 128 = d.val; omega)

/-- The reference's last stage, entry by entry, is the one-piece softmax row over all 8208 keys. -/
theorem ref_at (r : Fin 16) (h : Fin 32) (d : Fin 128) :
    Read.val_main_v25 (F := Ideal) X Wq Wk Wv CK CV (ix2 r (Cert.Spec.colOf h d)) = Cert.Spec.refAt X Wq Wk Wv CK CV r h d := by
  rw [val_main_v25_apply, val_main_v24_apply, idx_out, val_main_v23_apply]
  unfold Cert.Spec.refAt Cert.Spec.smRow
  refine Finset.sum_congr rfl fun k _ => ?_
  have el : lidx_main_v23 (ix3 h r d) k = ix3 h r k :=
    funext fun a => Fin.ext (by match a with | ⟨0, _⟩ => rfl | ⟨1, _⟩ => rfl | ⟨2, _⟩ => rfl)
  have er : ridx_main_v23 (ix3 h r d) k = ix3 h k d :=
    funext fun a => Fin.ext (by match a with | ⟨0, _⟩ => rfl | ⟨1, _⟩ => rfl | ⟨2, _⟩ => rfl)
  rw [el, er, weight_at, join_v]
  rfl

end Cert.ReferenceIdeal.RefValue

end
-- ==== Proof.Finite.lean ====
import proofs.«404056_j317827580171_3_alg».proof.Pre_finite_inputs
import proofs.«404056_j317827580171_3_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.Finite

open Cert.Pre_finite_inputs Idealize.ShloMosaic Idealize.ShloMosaic.ValueIdx

instance : Subsingleton S_.Idx := ⟨fun a b => funext fun d => d.elim0⟩

theorem ofBits_inf : Ideal.ofBits .f32 0x7F800000#32 = ⊤ := by simp [Ideal.ofBits, Ideal.ieee]

theorem real_of_abs_lt_top (y : EReal) (h : Ideal.cmp .olt (max y (-y)) ⊤ = 1#1) : ∃ x : ℝ, y = (x : EReal) := by
  induction y using EReal.rec with
  | bot => simp [Ideal.cmp] at h
  | coe x => exact ⟨x, rfl⟩
  | top => simp [Ideal.cmp] at h

theorem real_of_all {s : Shape} {axes : List (Fin s.rank)} (a : FVec Ideal s .f32)
    (bc : S_.BroadcastsInDim s (![] : Fin 0 → Fin s.rank)) (hr : s.ReducesTo axes S_) (hu : 0 < S_.numel)
    (h : Host.reduce IntOp.andi (cmpf .olt (Host.absf a) (broadcastInDim s ![] bc (constant S_ .f32 0x7F800000#32)))
           (constantI S_ 1 1#1) hr hu ix0 = 1#1) (i : s.Idx) : ∃ x : ℝ, a i = (x : EReal) := by
  have hi := Host.reduce_andi_all _ _ hr hu ix0 h i
  refine real_of_abs_lt_top (a i) ?_
  rw [← ofBits_inf]
  exact hi

/-- The precondition makes every entry of every input a real number. -/
theorem real_of_pre [Cert.Pre_finite_inputs.Facts]
    (a0 : FVec Ideal S16x4096 .f32) (a1 a2 a3 : FVec Ideal S4096x4096 .f32) (a4 a5 : FVec Ideal S32x8192x128 .f32)
    (hp : Cert.Pre_finite_inputs.fn (F := Ideal) a0 a1 a2 a3 a4 a5 = fun _ => 1#1) :
    (∀ i, ∃ x : ℝ, a0 i = (x : EReal)) ∧ (∀ i, ∃ x : ℝ, a1 i = (x : EReal)) ∧ (∀ i, ∃ x : ℝ, a2 i = (x : EReal))
      ∧ (∀ i, ∃ x : ℝ, a3 i = (x : EReal)) ∧ (∀ i, ∃ x : ℝ, a4 i = (x : EReal)) ∧ (∀ i, ∃ x : ℝ, a5 i = (x : EReal)) := by
  have h0 := congrFun hp ix0
  dsimp only [fn, fn_part1] at h0
  obtain ⟨h0, r5⟩ := IntOp.andi_eq_one.1 h0
  obtain ⟨h0, r4⟩ := IntOp.andi_eq_one.1 h0
  obtain ⟨h0, r3⟩ := IntOp.andi_eq_one.1 h0
  obtain ⟨h0, r2⟩ := IntOp.andi_eq_one.1 h0
  obtain ⟨r0, r1⟩ := IntOp.andi_eq_one.1 h0
  exact ⟨real_of_all a0 _ _ _ r0, real_of_all a1 _ _ _ r1, real_of_all a2 _ _ _ r2, real_of_all a3 _ _ _ r3,
    real_of_all a4 _ _ _ r4, real_of_all a5 _ _ _ r5⟩

end Cert.Finite

end
-- ==== Proof.KIBridge.lean ====
import proofs.«404056_j317827580171_3_alg».proof.Proof.Gen.KernelIdeal.Launch
import proofs.«404056_j317827580171_3_alg».proof.Proof.Gen.KernelIdeal.Skeleton
import proofs.«404056_j317827580171_3_alg».proof.Proof.Gen.KernelIdeal.Points
import proofs.«404056_j317827580171_3_alg».proof.Proof.KIRun
import proofs.«404056_j317827580171_3_alg».proof.Proof.KIValue0
import proofs.«404056_j317827580171_3_alg».proof.Proof.KIValue1
import proofs.«404056_j317827580171_3_alg».proof.Proof.KIValue2
import proofs.«404056_j317827580171_3_alg».proof.Proof.KIValue3
import proofs.«404056_j317827580171_3_alg».proof.Proof.ValueLaw
import proofs.«404056_j317827580171_3_alg».proof.Proof.RefValue
import proofs.«404056_j317827580171_3_alg».proof.Proof.Finite
import proofs.«404056_j317827580171_3_alg».proof.Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen Cert.KernelIdeal.HandR1 Cert.KernelIdeal.HandR2
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ) (ρ : Dev nD → PrngReg)

abbrev aX (c : Dev nD) : Vec Ideal S16x4096 .f32 := m ((c.tc : Thread nD τ).loc main_arg0)
abbrev aWq (c : Dev nD) : Vec Ideal S4096x4096 .f32 := m ((c.tc : Thread nD τ).loc main_arg1)
abbrev aWk (c : Dev nD) : Vec Ideal S4096x4096 .f32 := m ((c.tc : Thread nD τ).loc main_arg2)
abbrev aWv (c : Dev nD) : Vec Ideal S4096x4096 .f32 := m ((c.tc : Thread nD τ).loc main_arg3)
abbrev aCK (c : Dev nD) : Vec Ideal S32x8192x128 .f32 := m ((c.tc : Thread nD τ).loc main_arg4)
abbrev aCV (c : Dev nD) : Vec Ideal S32x8192x128 .f32 := m ((c.tc : Thread nD τ).loc main_arg5)

theorem V0_X (c : Dev nD) : V0 m ρ c main_arg0 = aX m c := rfl
theorem V0_W (c : Dev nD) : V0 m ρ c main_arg1 = aWq m c := rfl
theorem V1_X (c : Dev nD) : V1 m ρ c main_arg0 = aX m c := (W1_in m ρ c 0).trans rfl
theorem V1_W (c : Dev nD) : V1 m ρ c main_arg2 = aWk m c := (W1_of_ne m ρ c main_arg2 (by decide)).trans rfl
theorem V2_X (c : Dev nD) : V2 m ρ c main_arg0 = aX m c := (W2_in m ρ c 0).trans (V1_X m ρ c)
theorem V2_W (c : Dev nD) : V2 m ρ c main_arg3 = aWv m c :=
  (W2_of_ne m ρ c main_arg3 (by decide)).trans ((W1_of_ne m ρ c main_arg3 (by decide)).trans rfl)

theorem V3_Q (c : Dev nD) : V3 m ρ c main_v0 = (dat0 (V0 m ρ) c).arrAt 2 cfg0.N :=
  (W3_of_ne m ρ c main_v0 (by decide)).trans ((W2_of_ne m ρ c main_v0 (by decide)).trans (W1_arr m ρ c 2))
theorem V3_K (c : Dev nD) : V3 m ρ c main_v1 = (dat1 (V1 m ρ) c).arrAt 2 cfg1.N :=
  (W3_of_ne m ρ c main_v1 (by decide)).trans (W2_arr m ρ c 2)
theorem V3_V (c : Dev nD) : V3 m ρ c main_v2 = (dat2 (V2 m ρ) c).arrAt 2 cfg2.N :=
  W3_arr m ρ c 2
theorem V3_CK (c : Dev nD) : V3 m ρ c main_arg4 = aCK m c :=
  (W3_of_ne m ρ c main_arg4 (by decide)).trans ((W2_of_ne m ρ c main_arg4 (by decide)).trans ((W1_of_ne m ρ c main_arg4 (by decide)).trans rfl))
theorem V3_CV (c : Dev nD) : V3 m ρ c main_arg5 = aCV m c :=
  (W3_of_ne m ρ c main_arg5 (by decide)).trans ((W2_of_ne m ρ c main_arg5 (by decide)).trans ((W1_of_ne m ρ c main_arg5 (by decide)).trans rfl))

/-- Each entry of the kernel's result array is the layer's entry, spelt as the streaming row of the three projections and the caches. -/
theorem result_at (c : Dev nD) (r : Fin 16) (h : Fin 32) (d : Fin 128) :
    (dat3 (V3 m ρ) c).arrAt 5 cfg3.N (ix2 r (Cert.Spec.colOf h d))
      = Cert.Spec.kerAt (aX m c) (aWq m c) (aWk m c) (aWv m c) (aCK m c) (aCV m c) r h d := by
  rw [value3 (V3 m ρ) c _ _ _ _ _ (V3_Q m ρ c) (V3_K m ρ c) (V3_V m ρ c) (V3_CK m ρ c) (V3_CV m ρ c) r h d]
  unfold Cert.Spec.attnAt Cert.Spec.kerAt
  simp only [value0 (V0 m ρ) c _ _ (V0_X m ρ c) (V0_W m ρ c), value1 (V1 m ρ) c _ _ (V1_X m ρ c) (V1_W m ρ c),
    value2 (V2 m ρ) c _ _ (V2_X m ρ c) (V2_W m ρ c)]

theorem col_split (q : Fin 4096) : ∃ (h : Fin 32) (d : Fin 128), q = Cert.Spec.colOf h d :=
  ⟨⟨q.val / 128, by have := q.isLt; omega⟩, ⟨q.val % 128, Nat.mod_lt _ (by decide)⟩, Fin.ext (by simp only [Cert.Spec.colOf]; omega)⟩

/-- Under the precondition the kernel's result array is the reference's last stage of the same arguments. -/
theorem result_eq [hP : Cert.Pre_finite_inputs.Facts] (c : Dev nD)
    (hpre : Cert.Pre_finite_inputs.fn (F := Ideal) (aX m c) (aWq m c) (aWk m c) (aWv m c) (aCK m c) (aCV m c) = fun _ => 1#1) :
    (dat3 (V3 m ρ) c).arrAt 5 cfg3.N
      = Cert.ReferenceIdeal.Read.val_main_v25 (F := Ideal) (aX m c) (aWq m c) (aWk m c) (aWv m c) (aCK m c) (aCV m c) := by
  obtain ⟨hX, hWq, hWk, hWv, hCK, hCV⟩ := Cert.Finite.real_of_pre _ _ _ _ _ _ hpre
  funext i
  obtain ⟨r, q, rfl⟩ : ∃ (r : Fin 16) (q : Fin 4096), i = ix2 r q := ⟨i 0, i 1, eq_ix2 i⟩
  obtain ⟨h, d, rfl⟩ := col_split q
  rw [result_at m ρ c r h d, Cert.ReferenceIdeal.RefValue.ref_at]
  exact Cert.Spec.kerAt_eq_refAt _ _ _ _ _ _ hX hWq hWk hWv hCK hCV r h d

end Cert.KernelIdeal.Hand

end
-- ==== Proof.lean ====
import proofs.«404056_j317827580171_3_alg».proof.Defs
import proofs.«404056_j317827580171_3_alg».proof.Proof.Gen.Kernel
import proofs.«404056_j317827580171_3_alg».proof.Proof.Gen.KernelIdeal
import proofs.«404056_j317827580171_3_alg».proof.Proof.Gen.ReferenceIdeal
import proofs.«404056_j317827580171_3_alg».proof.Proof.Gen.Pre_finite_inputs
import proofs.«404056_j317827580171_3_alg».proof.Proof.KBRun
import proofs.«404056_j317827580171_3_alg».proof.Proof.KIRun
import proofs.«404056_j317827580171_3_alg».proof.Proof.KIBridge
import proofs.«404056_j317827580171_3_alg».proof.Proof.RefImports
import Idealize.ShloMosaic.Adequacy
import Idealize.ShloMosaic.Init

noncomputable section

namespace Cert.Proof

open Idealize.ShloMosaic Idealize.SL.Sem

section
variable [hK : Cert.Kernel.Facts] [hKI : Cert.KernelIdeal.Facts] [hR : Cert.ReferenceIdeal.Facts] [hP : Cert.Pre_finite_inputs.Facts]

/-- Each kernel program's run is its four calls in a row with every argument left as launched; the reference's frame is its run with the result dropped. -/
theorem frame_k : Cert.frame_Kernel := fun m ρ _ =>
  (θ_run Cert.Kernel.defs _ _).mono (fun _ h c => (h c).2) (Cert.Kernel.Hand.run_main (F := Bits) m ρ)

theorem frame_ki : Cert.frame_KernelIdeal := fun m ρ _ =>
  (θ_run Cert.KernelIdeal.defs _ _).mono (fun _ h c => (h c).2) (Cert.KernelIdeal.Hand.run_main (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the same result array: the attention call's final output equals the reference's last stage. -/
theorem algebraic : Cert.algebraic_KernelIdeal_ReferenceIdeal := by
  intro m ρ m' ρ' hpre hagree
  refine ⟨fun c => (Cert.KernelIdeal.Hand.dat3 (Cert.KernelIdeal.Hand.V3 m ρ) c).arrAt 5 Cert.KernelIdeal.cfg3.N,
    Cert.KernelIdeal.Hand.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, (hagree c).1, (hagree c).2.1, (hagree c).2.2.1, (hagree c).2.2.2.1,
    (hagree c).2.2.2.2.1, (hagree c).2.2.2.2.2]
  exact (Cert.KernelIdeal.Hand.result_eq m ρ c (hpre c)).symm

end

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
